-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x16384 : Shape := ⟨2, ![16384, 16384]⟩
abbrev S512x256 : Shape := ⟨2, ![512, 256]⟩
abbrev S256x128 : Shape := ⟨2, ![256, 128]⟩
abbrev S256x1 : Shape := ⟨2, ![256, 1]⟩
abbrev S500000x2 : Shape := ⟨2, ![500000, 2]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S512x256 : S_.BroadcastsInDim S512x256 (![] : Fin 0 → Fin S512x256.rank)
  reducesTo_S512x256_S_d0_1 : S512x256.ReducesTo [0, 1] S_
  bcast_S_S256x128 : S_.BroadcastsInDim S256x128 (![] : Fin 0 → Fin S256x128.rank)
  reducesTo_S256x128_S_d0_1 : S256x128.ReducesTo [0, 1] S_
  bcast_S_S256x1 : S_.BroadcastsInDim S256x1 (![] : Fin 0 → Fin S256x1.rank)
  reducesTo_S256x1_S_d0_1 : S256x1.ReducesTo [0, 1] S_
  bcast_S_S500000x2 : S_.BroadcastsInDim S500000x2 (![] : Fin 0 → Fin S500000x2.rank)
  reducesTo_S500000x2_S_d0_1 : S500000x2.ReducesTo [0, 1] S_

variable [Facts]

def fn_part2 {F : FTy → Type} [FloatOps F] (main_arg7 : IVec S500000x2 32) (main_v28 : IVec S_ 1) (main_v33 : IVec S500000x2 1) : IVec S_ 1 :=
  let main_c_12 : IVec S_ 1 := constantI S_ 1 1#1
  let main_v34 : IVec S_ 1 := (fun x v => Host.reduce IntOp.andi x v reducesTo_S500000x2_S_d0_1 h_S_) main_v33 main_c_12
  let main_v35 : IVec S_ 1 := andi main_v28 main_v34
  let main_c_13 : IVec S_ 32 := constantI S_ 32 0#32
  let main_v36 : IVec S500000x2 32 := broadcastInDim S500000x2 ![] bcast_S_S500000x2 main_c_13
  let main_v37 : IVec S500000x2 1 := cmpi .sge main_arg7 main_v36
  let main_c_14 : IVec S_ 32 := constantI S_ 32 16384#32
  let main_v38 : IVec S500000x2 32 := broadcastInDim S500000x2 ![] bcast_S_S500000x2 main_c_14
  let main_v39 : IVec S500000x2 1 := cmpi .slt main_arg7 main_v38
  let main_v40 : IVec S500000x2 1 := andi main_v37 main_v39
  let main_c_15 : IVec S_ 1 := constantI S_ 1 1#1
  let main_v41 : IVec S_ 1 := (fun x v => Host.reduce IntOp.andi x v reducesTo_S500000x2_S_d0_1 h_S_) main_v40 main_c_15
  let main_v42 : IVec S_ 1 := andi main_v35 main_v41
  main_v42

def fn_part1 {F : FTy → Type} [FloatOps F] (main_arg4 : FVec F S256x128 .f32) (main_arg5 : FVec F S256x1 .f32) (main_arg6 : IVec S500000x2 32) (main_arg7 : IVec S500000x2 32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x1 .f32 := Host.absf main_arg5
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_c_10 : IVec S_ 32 := constantI S_ 32 0#32
  let main_v29 : IVec S500000x2 32 := broadcastInDim S500000x2 ![] bcast_S_S500000x2 main_c_10
  let main_v30 : IVec S500000x2 1 := cmpi .sge main_arg6 main_v29
  let main_c_11 : IVec S_ 32 := constantI S_ 32 16384#32
  let main_v31 : IVec S500000x2 32 := broadcastInDim S500000x2 ![] bcast_S_S500000x2 main_c_11
  let main_v32 : IVec S500000x2 1 := cmpi .slt main_arg6 main_v31
  let main_v33 : IVec S500000x2 1 := andi main_v30 main_v32
  fn_part2 (F := F) main_arg7 main_v28 main_v33

def fn {F : FTy → Type} [FloatOps F] (main_arg0 : FVec F S16384x512 .f32) (main_arg1 : FVec F S16384x16384 .f32) (main_arg2 : FVec F S512x256 .f32) (main_arg3 : FVec F S256x128 .f32) (main_arg4 : FVec F S256x128 .f32) (main_arg5 : FVec F S256x1 .f32) (main_arg6 : IVec S500000x2 32) (main_arg7 : IVec S500000x2 32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_v13 main_v16
-- ==== Kernel.lean ====
abbrev S16384x512 : Shape := ⟨2, ![16384, 512]⟩
abbrev S16384x16384 : Shape := ⟨2, ![16384, 16384]⟩
abbrev S512x256 : Shape := ⟨2, ![512, 256]⟩
abbrev S256x128 : Shape := ⟨2, ![256, 128]⟩
abbrev S256x1 : Shape := ⟨2, ![256, 1]⟩
abbrev S500000x2 : Shape := ⟨2, ![500000, 2]⟩
abbrev S16384x256 : Shape := ⟨2, ![16384, 256]⟩
abbrev S2048x512 : Shape := ⟨2, ![2048, 512]⟩
abbrev S2048x256 : Shape := ⟨2, ![2048, 256]⟩
abbrev S16384x128 : Shape := ⟨2, ![16384, 128]⟩
abbrev S1024x2048 : Shape := ⟨2, ![1024, 2048]⟩
abbrev S1024x128 : Shape := ⟨2, ![1024, 128]⟩
abbrev S1024x256 : Shape := ⟨2, ![1024, 256]⟩
abbrev S2048x128 : Shape := ⟨2, ![2048, 128]⟩
abbrev S1000000x2 : Shape := ⟨2, ![1000000, 2]⟩
abbrev S1000000x1 : Shape := ⟨2, ![1000000, 1]⟩
abbrev S1000000 : Shape := ⟨1, ![1000000]⟩
abbrev S_ : Shape := ⟨0, ![]⟩
abbrev S1 : Shape := ⟨1, ![1]⟩
abbrev S1x1 : Shape := ⟨2, ![1, 1]⟩
abbrev S1000000x128 : Shape := ⟨2, ![1000000, 128]⟩
abbrev S128x128 : Shape := ⟨2, ![128, 128]⟩
abbrev S128x1 : Shape := ⟨2, ![128, 1]⟩
abbrev S1x128 : Shape := ⟨2, ![1, 128]⟩
abbrev S8000x128 : Shape := ⟨2, ![8000, 128]⟩
abbrev S8000x1 : Shape := ⟨2, ![8000, 1]⟩
abbrev S8000 : Shape := ⟨1, ![8000]⟩

abbrev nBuf : Space → Nat
  | .hbm => 73
  | .vmem => 27
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x256, .f32⟩
  | .hbm, ⟨3, _⟩ => ⟨S256x128, .f32⟩
  | .hbm, ⟨4, _⟩ => ⟨S256x128, .f32⟩
  | .hbm, ⟨5, _⟩ => ⟨S256x1, .f32⟩
  | .hbm, ⟨6, _⟩ => ⟨S500000x2, .i32⟩
  | .hbm, ⟨7, _⟩ => ⟨S500000x2, .i32⟩
  | .hbm, ⟨8, _⟩ => ⟨S16384x256, .bf16⟩
  | .hbm, ⟨9, _⟩ => ⟨S256x128, .bf16⟩
  | .hbm, ⟨10, _⟩ => ⟨S16384x128, .bf16⟩
  | .hbm, ⟨11, _⟩ => ⟨S16384x128, .f32⟩
  | .hbm, ⟨12, _⟩ => ⟨S1000000x2, .i32⟩
  | .hbm, ⟨13, _⟩ => ⟨S1000000x1, .i32⟩
  | .hbm, ⟨14, _⟩ => ⟨S1000000, .i32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1, .i32⟩
  | .hbm, ⟨24, _⟩ => ⟨S_, .i32⟩
  | .hbm, ⟨25, _⟩ => ⟨S1000000x1, .i32⟩
  | .hbm, ⟨26, _⟩ => ⟨S1000000x1, .i1⟩
  | .hbm, ⟨27, _⟩ => ⟨S1x1, .i32⟩
  | .hbm, ⟨28, _⟩ => ⟨S1000000x1, .i32⟩
  | .hbm, ⟨29, _⟩ => ⟨S1000000x1, .i1⟩
  | .hbm, ⟨30, _⟩ => ⟨S1000000x1, .i1⟩
  | .hbm, ⟨31, _⟩ => ⟨S_, .i1⟩
  | .hbm, ⟨32, _⟩ => ⟨S1000000, .i1⟩
  | .hbm, ⟨33, _⟩ => ⟨S1000000x128, .f32⟩
  | .hbm, ⟨34, _⟩ => ⟨S1000000x128, .i1⟩
  | .hbm, ⟨35, _⟩ => ⟨S_, .f32⟩
  | .hbm, ⟨36, _⟩ => ⟨S1000000x128, .f32⟩
  | .hbm, ⟨37, _⟩ => ⟨S1000000x128, .f32⟩
  | .hbm, ⟨38, _⟩ => ⟨S1000000x1, .i32⟩
  | .hbm, ⟨39, _⟩ => ⟨S1000000, .i32⟩
  | .hbm, ⟨40, _⟩ => ⟨S_, .i32⟩
  | .hbm, ⟨41, _⟩ => ⟨S1000000, .i32⟩
  | .hbm, ⟨42, _⟩ => ⟨S1000000, .i1⟩
  | .hbm, ⟨43, _⟩ => ⟨S_, .i32⟩
  | .hbm, ⟨44, _⟩ => ⟨S1000000, .i32⟩
  | .hbm, ⟨45, _⟩ => ⟨S1000000, .i32⟩
  | .hbm, ⟨46, _⟩ => ⟨S1000000, .i32⟩
  | .hbm, ⟨47, _⟩ => ⟨S1000000x1, .i32⟩
  | .hbm, ⟨48, _⟩ => ⟨S1, .i32⟩
  | .hbm, ⟨49, _⟩ => ⟨S_, .i32⟩
  | .hbm, ⟨50, _⟩ => ⟨S1000000x1, .i32⟩
  | .hbm, ⟨51, _⟩ => ⟨S1000000x1, .i1⟩
  | .hbm, ⟨52, _⟩ => ⟨S1x1, .i32⟩
  | .hbm, ⟨53, _⟩ => ⟨S1000000x1, .i32⟩
  | .hbm, ⟨54, _⟩ => ⟨S1000000x1, .i1⟩
  | .hbm, ⟨55, _⟩ => ⟨S1000000x1, .i1⟩
  | .hbm, ⟨56, _⟩ => ⟨S_, .i1⟩
  | .hbm, ⟨57, _⟩ => ⟨S1000000, .i1⟩
  | .hbm, ⟨58, _⟩ => ⟨S1000000x128, .f32⟩
  | .hbm, ⟨59, _⟩ => ⟨S1000000x128, .i1⟩
  | .hbm, ⟨60, _⟩ => ⟨S_, .f32⟩
  | .hbm, ⟨61, _⟩ => ⟨S1000000x128, .f32⟩
  | .hbm, ⟨62, _⟩ => ⟨S1000000x128, .f32⟩
  | .hbm, ⟨63, _⟩ => ⟨S128x128, .f32⟩
  | .hbm, ⟨64, _⟩ => ⟨S128x128, .f32⟩
  | .hbm, ⟨65, _⟩ => ⟨S128x1, .f32⟩
  | .hbm, ⟨66, _⟩ => ⟨S128x1, .f32⟩
  | .hbm, ⟨67, _⟩ => ⟨S128x1, .f32⟩
  | .hbm, ⟨68, _⟩ => ⟨S1x128, .f32⟩
  | .hbm, ⟨69, _⟩ => ⟨S128x1, .f32⟩
  | .hbm, ⟨70, _⟩ => ⟨S1x128, .f32⟩
  | .hbm, ⟨71, _⟩ => ⟨S1x128, .f32⟩
  | .hbm, ⟨72, _⟩ => ⟨S1000000x1, .f32⟩
  | .local _ .vmem, ⟨0, _⟩ => ⟨S2048x512, .f32⟩
  | .local _ .vmem, ⟨1, _⟩ => ⟨S2048x512, .f32⟩
  | .local _ .vmem, ⟨2, _⟩ => ⟨S512x256, .f32⟩
  | .local _ .vmem, ⟨3, _⟩ => ⟨S2048x256, .bf16⟩
  | .local _ .vmem, ⟨4, _⟩ => ⟨S2048x256, .bf16⟩
  | .local _ .vmem, ⟨5, _⟩ => ⟨S1024x2048, .f32⟩
  | .local _ .vmem, ⟨6, _⟩ => ⟨S1024x2048, .f32⟩
  | .local _ .vmem, ⟨7, _⟩ => ⟨S16384x256, .bf16⟩
  | .local _ .vmem, ⟨8, _⟩ => ⟨S256x128, .bf16⟩
  | .local _ .vmem, ⟨9, _⟩ => ⟨S1024x128, .bf16⟩
  | .local _ .vmem, ⟨10, _⟩ => ⟨S1024x128, .bf16⟩
  | .local _ .vmem, ⟨11, _⟩ => ⟨S1024x256, .f32⟩
  | .local _ .vmem, ⟨12, _⟩ => ⟨S1024x2048, .f32⟩
  | .local _ .vmem, ⟨13, _⟩ => ⟨S1024x2048, .f32⟩
  | .local _ .vmem, ⟨14, _⟩ => ⟨S16384x128, .bf16⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S8000x128, .f32⟩
  | .local _ .vmem, ⟨19, _⟩ => ⟨S8000x128, .f32⟩
  | .local _ .vmem, ⟨20, _⟩ => ⟨S8000x128, .f32⟩
  | .local _ .vmem, ⟨21, _⟩ => ⟨S8000x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S8000x1, .f32⟩
  | .local _ .vmem, ⟨26, _⟩ => ⟨S8000x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_scratch0 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg5_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem3_0 : DmaSem sig := 21
abbrev cc3_sem4_0 : DmaSem sig := 22
abbrev cc3_sem5_0 : DmaSem sig := 23
abbrev cc3_sem5_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 8], ![false, false]⟩

def k1_mult1 (i : grid1.Coords) : BitVec 32 :=
  let arg1 : BitVec 32 := BitVec.ofNat 32 (i 1).val
  let c2048_i32 : BitVec 32 := 2048#32
  let v5 : BitVec 32 := Scalar.muli arg1 c2048_i32
  v5
def k1_off1 (i : grid1.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16384x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![16, 8], ![false, false]⟩

def k2_mult1 (i : grid2.Coords) : BitVec 32 :=
  let arg1 : BitVec 32 := BitVec.ofNat 32 (i 1).val
  let c2048_i32 : BitVec 32 := 2048#32
  let v5 : BitVec 32 := Scalar.muli arg1 c2048_i32
  v5
def k2_off1 (i : grid2.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k2_cond2 (i : grid2.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S16384x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S8000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2048x256_S2048x256_0_0 : ∀ a, (![0, 0] : Fin 2 → Nat) a + S2048x256.size a ≤ S2048x256.size a
  h_S2048x256 : 0 < S2048x256.numel
  packedbf16_S2048x256_S2048x256_0_0 : (Rect.unit (s := S2048x256) ![0, 0] S2048x256.size inb_S2048x256_S2048x256_0_0).PackedRows (EltTy.packing .bf16)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x2048_S1024x2048_0_0 : ∀ a, (![0, 0] : Fin 2 → Nat) a + S1024x2048.size a ≤ S1024x2048.size a
  h_S1024x2048 : 0 < S1024x2048.numel
  shapeCasts_S2048x256_S2048x256 : S2048x256.ShapeCasts S2048x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  shapeCasts_S1024x128_S1024x128 : S1024x128.ShapeCasts S1024x128
  h_S2048x128 : 0 < S2048x128.numel
  shapeCasts_S2048x128_S2048x128 : S2048x128.ShapeCasts S2048x128
  concatenates_S500000x2_S500000x2_S1000000x2_d0 : Shape.Concatenates [S500000x2, S500000x2] S1000000x2 0
  slices_S1000000x2_S1000000x1_0_0 : S1000000x2.Slices ![0, 0] S1000000x1
  shapeCasts_S1000000x1_S1000000 : S1000000x1.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x128_0 : S1000000.BroadcastsInDim S1000000x128 (![0] : Fin 1 → Fin S1000000x128.rank)
  bcast_S_S1000000x128 : S_.BroadcastsInDim S1000000x128 (![] : Fin 0 → Fin S1000000x128.rank)
  slices_S1000000x2_S1000000x1_0_1 : S1000000x2.Slices ![0, 1] S1000000x1
  slices_S256x128_S128x128_0_0 : S256x128.Slices ![0, 0] S128x128
  slices_S256x128_S128x128_128_0 : S256x128.Slices ![128, 0] S128x128
  slices_S256x1_S128x1_0_0 : S256x1.Slices ![0, 0] S128x1
  slices_S256x1_S128x1_128_0 : S256x1.Slices ![128, 0] S128x1
  transposes_S128x1_S1x128_1_0 : S128x1.Transposes [1, 0] S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  reduces_S8000x128_S8000 : S8000x128.Reduces [1] S8000
  shapeCasts_S8000_S8000x1 : S8000.ShapeCasts S8000x1
  inb_S8000x1_S8000x1_0_0 : ∀ a, (![0, 0] : Fin 2 → Nat) a + S8000x1.size a ≤ S8000x1.size a
  h_S8000x1 : 0 < S8000x1.numel
  dot_S2048x512_S512x256_S2048x256_1_0_0_1_n_n_wf : DotDims.WF S2048x512 S512x256 S2048x256 [1] [0] [0] [1] [] []
  dot_S1024x2048_S2048x256_S1024x256_1_0_0_1_n_n_wf : DotDims.WF S1024x2048 S2048x256 S1024x256 [1] [0] [0] [1] [] []
  dot_S1024x256_S256x128_S1024x128_1_0_0_1_n_n_wf : DotDims.WF S1024x256 S256x128 S1024x128 [1] [0] [0] [1] [] []
  dot_S1024x2048_S2048x128_S1024x128_1_0_0_1_n_n_wf : DotDims.WF S1024x2048 S2048x128 S1024x128 [1] [0] [0] [1] [] []
  gather_S16384x128_S1000000x1_S1000000x128_1_0_n_n_0_1_1128_wf : GatherDims.WF S16384x128 S1000000x1 S1000000x128 [1] [0] [] [0] [] 1 ![1, 128]
  dot_S128x128_S128x1_S128x1_1_0_0_1_n_n_wf : DotDims.WF S128x128 S128x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S16384x256.size a
  hwx0_2 : ∀ i : grid0.Coords, EltTy.bits .bf16 = 32 ∨ (Rect.block (s := S16384x256) S2048x256.size (cc0_transform_2 i) (hinb0_2 i)).WholeWords (EltTy.packing .bf16)
  hrank1 : 0 < grid1.rank
  k1_mult1_dvd : ∀ i : grid1.Coords, 2048 ∣ (k1_mult1 i).toNat
  k1_off1_inb : ∀ i : grid1.Coords, ∀ a, (k1_off1 i) a + S2048x256.size a ≤ S16384x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x256.size a ≤ S16384x256.size a
  hwx1_1 : ∀ i : grid1.Coords, EltTy.bits .bf16 = 32 ∨ (Rect.block (s := S16384x256) S16384x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .bf16 = 32 ∨ (Rect.block (s := S256x128) S256x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S16384x128.size a
  hwx1_3 : ∀ i : grid1.Coords, EltTy.bits .bf16 = 32 ∨ (Rect.block (s := S16384x128) S1024x128.size (cc1_transform_3 i) (hinb1_3 i)).WholeWords (EltTy.packing .bf16)
  hrank2 : 0 < grid2.rank
  k2_mult1_dvd : ∀ i : grid2.Coords, 2048 ∣ (k2_mult1 i).toNat
  k2_off1_inb : ∀ i : grid2.Coords, ∀ a, (k2_off1 i) a + S2048x128.size a ≤ S16384x128.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S16384x16384.size a
  hwx2_0 : ∀ i : grid2.Coords, EltTy.bits .f32 = 32 ∨ (Rect.block (s := S16384x16384) S1024x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16384x128.size a ≤ S16384x128.size a
  hwx2_1 : ∀ i : grid2.Coords, EltTy.bits .bf16 = 32 ∨ (Rect.block (s := S16384x128) S16384x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S16384x128.size a
  hwx2_2 : ∀ i : grid2.Coords, EltTy.bits .f32 = 32 ∨ (Rect.block (s := S16384x128) S1024x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x128.size a ≤ S1000000x128.size a
  hwx3_0 : ∀ i : grid3.Coords, EltTy.bits .f32 = 32 ∨ (Rect.block (s := S1000000x128) S8000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x128.size a ≤ S1000000x128.size a
  hwx3_1 : ∀ i : grid3.Coords, EltTy.bits .f32 = 32 ∨ (Rect.block (s := S1000000x128) S8000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S8000x1.size a ≤ S1000000x1.size a
  hwx3_5 : ∀ i : grid3.Coords, EltTy.bits .f32 = 32 ∨ (Rect.block (s := S1000000x1) S8000x1.size (cc3_transform_5 i) (hinb3_5 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def gather_S16384x128_S1000000x1_S1000000x128_1_0_n_n_0_1_1128 : GatherDims S16384x128 S1000000x1 S1000000x128 where
  offsetDims := [1]
  collapsedSliceDims := [0]
  operandBatchingDims := []
  startIndicesBatchingDims := []
  startIndexMap := [0]
  indexVectorDim := 1
  sliceSizes := ![1, 128]
  wf := gather_S16384x128_S1000000x1_S1000000x128_1_0_n_n_0_1_1128_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S16384x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg1) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S16384x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1024x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v7) S8000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S8000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v18) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v19) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v20) S8000x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S16384x512 : Shape := ⟨2, ![16384, 512]⟩
abbrev S16384x16384 : Shape := ⟨2, ![16384, 16384]⟩
abbrev S512x256 : Shape := ⟨2, ![512, 256]⟩
abbrev S256x128 : Shape := ⟨2, ![256, 128]⟩
abbrev S256x1 : Shape := ⟨2, ![256, 1]⟩
abbrev S500000x2 : Shape := ⟨2, ![500000, 2]⟩
abbrev S16384x256 : Shape := ⟨2, ![16384, 256]⟩
abbrev S_ : Shape := ⟨0, ![]⟩
abbrev S16384x128 : Shape := ⟨2, ![16384, 128]⟩
abbrev S500000x1 : Shape := ⟨2, ![500000, 1]⟩
abbrev S500000 : Shape := ⟨1, ![500000]⟩
abbrev S500000x128 : Shape := ⟨2, ![500000, 128]⟩
abbrev S500000x256 : Shape := ⟨2, ![500000, 256]⟩
abbrev S1000000x1 : Shape := ⟨2, ![1000000, 1]⟩

abbrev nBuf : Space → Nat
  | .hbm => 84
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x256, .f32⟩
  | .hbm, ⟨3, _⟩ => ⟨S256x128, .f32⟩
  | .hbm, ⟨4, _⟩ => ⟨S256x128, .f32⟩
  | .hbm, ⟨5, _⟩ => ⟨S256x1, .f32⟩
  | .hbm, ⟨6, _⟩ => ⟨S500000x2, .i32⟩
  | .hbm, ⟨7, _⟩ => ⟨S500000x2, .i32⟩
  | .hbm, ⟨8, _⟩ => ⟨S16384x256, .f32⟩
  | .hbm, ⟨9, _⟩ => ⟨S16384x256, .f32⟩
  | .hbm, ⟨10, _⟩ => ⟨S_, .f32⟩
  | .hbm, ⟨11, _⟩ => ⟨S16384x256, .f32⟩
  | .hbm, ⟨12, _⟩ => ⟨S16384x256, .f32⟩
  | .hbm, ⟨13, _⟩ => ⟨S16384x128, .f32⟩
  | .hbm, ⟨14, _⟩ => ⟨S16384x128, .f32⟩
  | .hbm, ⟨15, _⟩ => ⟨S500000x1, .i32⟩
  | .hbm, ⟨16, _⟩ => ⟨S500000, .i32⟩
  | .hbm, ⟨17, _⟩ => ⟨S_, .i32⟩
  | .hbm, ⟨18, _⟩ => ⟨S500000, .i32⟩
  | .hbm, ⟨19, _⟩ => ⟨S500000, .i1⟩
  | .hbm, ⟨20, _⟩ => ⟨S_, .i32⟩
  | .hbm, ⟨21, _⟩ => ⟨S500000, .i32⟩
  | .hbm, ⟨22, _⟩ => ⟨S500000, .i32⟩
  | .hbm, ⟨23, _⟩ => ⟨S500000, .i32⟩
  | .hbm, ⟨24, _⟩ => ⟨S500000x1, .i32⟩
  | .hbm, ⟨25, _⟩ => ⟨S500000x128, .f32⟩
  | .hbm, ⟨26, _⟩ => ⟨S500000x1, .i32⟩
  | .hbm, ⟨27, _⟩ => ⟨S500000, .i32⟩
  | .hbm, ⟨28, _⟩ => ⟨S_, .i32⟩
  | .hbm, ⟨29, _⟩ => ⟨S500000, .i32⟩
  | .hbm, ⟨30, _⟩ => ⟨S500000, .i1⟩
  | .hbm, ⟨31, _⟩ => ⟨S_, .i32⟩
  | .hbm, ⟨32, _⟩ => ⟨S500000, .i32⟩
  | .hbm, ⟨33, _⟩ => ⟨S500000, .i32⟩
  | .hbm, ⟨34, _⟩ => ⟨S500000, .i32⟩
  | .hbm, ⟨35, _⟩ => ⟨S500000x1, .i32⟩
  | .hbm, ⟨36, _⟩ => ⟨S500000x128, .f32⟩
  | .hbm, ⟨37, _⟩ => ⟨S500000x256, .f32⟩
  | .hbm, ⟨38, _⟩ => ⟨S_, .f32⟩
  | .hbm, ⟨39, _⟩ => ⟨S500000x256, .f32⟩
  | .hbm, ⟨40, _⟩ => ⟨S500000x256, .f32⟩
  | .hbm, ⟨41, _⟩ => ⟨S500000x128, .f32⟩
  | .hbm, ⟨42, _⟩ => ⟨S500000x128, .f32⟩
  | .hbm, ⟨43, _⟩ => ⟨S500000x256, .f32⟩
  | .hbm, ⟨44, _⟩ => ⟨S500000x1, .f32⟩
  | .hbm, ⟨45, _⟩ => ⟨S500000x1, .i32⟩
  | .hbm, ⟨46, _⟩ => ⟨S500000, .i32⟩
  | .hbm, ⟨47, _⟩ => ⟨S_, .i32⟩
  | .hbm, ⟨48, _⟩ => ⟨S500000, .i32⟩
  | .hbm, ⟨49, _⟩ => ⟨S500000, .i1⟩
  | .hbm, ⟨50, _⟩ => ⟨S_, .i32⟩
  | .hbm, ⟨51, _⟩ => ⟨S500000, .i32⟩
  | .hbm, ⟨52, _⟩ => ⟨S500000, .i32⟩
  | .hbm, ⟨53, _⟩ => ⟨S500000, .i32⟩
  | .hbm, ⟨54, _⟩ => ⟨S500000x1, .i32⟩
  | .hbm, ⟨55, _⟩ => ⟨S500000x128, .f32⟩
  | .hbm, ⟨56, _⟩ => ⟨S500000x1, .i32⟩
  | .hbm, ⟨57, _⟩ => ⟨S500000, .i32⟩
  | .hbm, ⟨58, _⟩ => ⟨S_, .i32⟩
  | .hbm, ⟨59, _⟩ => ⟨S500000, .i32⟩
  | .hbm, ⟨60, _⟩ => ⟨S500000, .i1⟩
  | .hbm, ⟨61, _⟩ => ⟨S_, .i32⟩
  | .hbm, ⟨62, _⟩ => ⟨S500000, .i32⟩
  | .hbm, ⟨63, _⟩ => ⟨S500000, .i32⟩
  | .hbm, ⟨64, _⟩ => ⟨S500000, .i32⟩
  | .hbm, ⟨65, _⟩ => ⟨S500000x1, .i32⟩
  | .hbm, ⟨66, _⟩ => ⟨S500000x128, .f32⟩
  | .hbm, ⟨67, _⟩ => ⟨S500000x256, .f32⟩
  | .hbm, ⟨68, _⟩ => ⟨S_, .f32⟩
  | .hbm, ⟨69, _⟩ => ⟨S500000x256, .f32⟩
  | .hbm, ⟨70, _⟩ => ⟨S500000x256, .f32⟩
  | .hbm, ⟨71, _⟩ => ⟨S500000x128, .f32⟩
  | .hbm, ⟨72, _⟩ => ⟨S500000x128, .f32⟩
  | .hbm, ⟨73, _⟩ => ⟨S500000x256, .f32⟩
  | .hbm, ⟨74, _⟩ => ⟨S500000x1, .f32⟩
  | .hbm, ⟨75, _⟩ => ⟨S1000000x1, .f32⟩
  | .hbm, ⟨76, _⟩ => ⟨S1000000x1, .f32⟩
  | .hbm, ⟨77, _⟩ => ⟨S1000000x1, .f32⟩
  | .hbm, ⟨78, _⟩ => ⟨S_, .f32⟩
  | .hbm, ⟨79, _⟩ => ⟨S1000000x1, .f32⟩
  | .hbm, ⟨80, _⟩ => ⟨S1000000x1, .f32⟩
  | .hbm, ⟨81, _⟩ => ⟨S_, .f32⟩
  | .hbm, ⟨82, _⟩ => ⟨S1000000x1, .f32⟩
  | .hbm, ⟨83, _⟩ => ⟨S1000000x1, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_cst : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call1_cst : Ref sig .tc := ⟨.hbm, 38, rfl⟩
abbrev main_call1_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_3 : Ref sig .tc := ⟨.hbm, 47, rfl⟩
abbrev main_v31 : Ref sig .tc := ⟨.hbm, 48, rfl⟩
abbrev main_v32 : Ref sig .tc := ⟨.hbm, 49, rfl⟩
abbrev main_c_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_5 : Ref sig .tc := ⟨.hbm, 58, rfl⟩
abbrev main_v40 : Ref sig .tc := ⟨.hbm, 59, rfl⟩
abbrev main_v41 : Ref sig .tc := ⟨.hbm, 60, rfl⟩
abbrev main_c_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call2_cst : Ref sig .tc := ⟨.hbm, 68, rfl⟩
abbrev main_call2_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst : Ref sig .tc := ⟨.hbm, 78, rfl⟩
abbrev main_v56 : Ref sig .tc := ⟨.hbm, 79, rfl⟩
abbrev main_v57 : Ref sig .tc := ⟨.hbm, 80, rfl⟩
abbrev main_cst_7 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]

class Facts₀ : Prop where
  bcast_S_S16384x256 : S_.BroadcastsInDim S16384x256 (![] : Fin 0 → Fin S16384x256.rank)
  slices_S500000x2_S500000x1_0_0 : S500000x2.Slices ![0, 0] S500000x1
  shapeCasts_S500000x1_S500000 : S500000x1.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S500000x2_S500000x1_0_1 : S500000x2.Slices ![0, 1] S500000x1
  concatenates_S500000x128_S500000x128_S500000x256_d1 : Shape.Concatenates [S500000x128, S500000x128] S500000x256 1
  bcast_S_S500000x256 : S_.BroadcastsInDim S500000x256 (![] : Fin 0 → Fin S500000x256.rank)
  concatenates_S500000x1_S500000x1_S1000000x1_d0 : Shape.Concatenates [S500000x1, S500000x1] S1000000x1 0
  bcast_S_S1000000x1 : S_.BroadcastsInDim S1000000x1 (![] : Fin 0 → Fin S1000000x1.rank)
  dot_S16384x512_S512x256_S16384x256_1_0_0_1_n_n_wf : DotDims.WF S16384x512 S512x256 S16384x256 [1] [0] [0] [1] [] []
  dot_S16384x16384_S16384x256_S16384x256_1_0_0_1_n_n_wf : DotDims.WF S16384x16384 S16384x256 S16384x256 [1] [0] [0] [1] [] []
  dot_S16384x256_S256x128_S16384x128_1_0_0_1_n_n_wf : DotDims.WF S16384x256 S256x128 S16384x128 [1] [0] [0] [1] [] []
  dot_S16384x16384_S16384x128_S16384x128_1_0_0_1_n_n_wf : DotDims.WF S16384x16384 S16384x128 S16384x128 [1] [0] [0] [1] [] []
  gather_S16384x128_S500000x1_S500000x128_1_0_n_n_0_1_1128_wf : GatherDims.WF S16384x128 S500000x1 S500000x128 [1] [0] [] [0] [] 1 ![1, 128]
  dot_S500000x256_S256x128_S500000x128_1_0_0_1_n_n_wf : DotDims.WF S500000x256 S256x128 S500000x128 [1] [0] [0] [1] [] []
  dot_S500000x256_S256x1_S500000x1_1_0_0_1_n_n_wf : DotDims.WF S500000x256 S256x1 S500000x1 [1] [0] [0] [1] [] []

variable [Facts₀]

def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x16384_S16384x256_S16384x256_1_0_0_1_n_n : DotDims S16384x16384 S16384x256 S16384x256 where
  lhsContracting := [1]
  rhsContracting := [0]
  lhsNonContracting := [0]
  rhsNonContracting := [1]
  lhsBatch := []
  rhsBatch := []
  wf := dot_S16384x16384_S16384x256_S16384x256_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def gather_S16384x128_S500000x1_S500000x128_1_0_n_n_0_1_1128 : GatherDims S16384x128 S500000x1 S500000x128 where
  offsetDims := [1]
  collapsedSliceDims := [0]
  operandBatchingDims := []
  startIndicesBatchingDims := []
  startIndexMap := [0]
  indexVectorDim := 1
  sliceSizes := ![1, 128]
  wf := gather_S16384x128_S500000x1_S500000x128_1_0_n_n_0_1_1128_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x256_S256x1_S500000x1_1_0_0_1_n_n : DotDims S500000x256 S256x1 S500000x1 where
  lhsContracting := [1]
  rhsContracting := [0]
  lhsNonContracting := [0]
  rhsNonContracting := [1]
  lhsBatch := []
  rhsBatch := []
  wf := dot_S500000x256_S256x1_S500000x1_1_0_0_1_n_n_wf

class Facts : Prop extends Facts₀ where

variable [Facts]
-- ==== Proof.KI.Data.lean ====
/- Per grid point, what each of the four grid computations writes back, as functions of the arrays found on entry. -/
import proofs.«418033_j40699110097036_3_alg».proof.Proof.Gen.KernelIdeal.Launch
import proofs.«418033_j40699110097036_3_alg».proof.Proof.Gen.KernelIdeal.Skeleton
import proofs.«418033_j40699110097036_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev scM1 : Memref sig .tc .vmem S1024x256 .f32 := Memref.whole cc1_scratch0

def slab1 (c : Dev nD) (t : Fin cfg1.N) : Vec F S2048x256 .bf16 :=
  View.ld (iblk1 V c 1 t) (Rect.unit (s := S16384x256) (k1_off1 (grid1.coords t)) S2048x256.size (k1_off1_inb (grid1.coords t)))

def acc1 (c : Dev nD) : (n : ℕ) → n < cfg1.N → Vec F S1024x256 .f32
  | 0, hn => k1_pay2 (iblk1 V c 0 ⟨0, hn⟩) (slab1 V c ⟨0, hn⟩) (k1_pay1 (F := F))
  | n + 1, hn => k1_pay2 (iblk1 V c 0 ⟨n + 1, hn⟩) (slab1 V c ⟨n + 1, hn⟩)
      (if (n + 1) % 8 = 0 then (k1_pay1 (F := F) : Vec F S1024x256 .f32) else acc1 c n (Nat.lt_of_succ_lt hn))

def Phi1 (c : Dev nD) : (n : ℕ) → n ≤ cfg1.N → sProp 𝕄
  | 0, _ => Pipeline.ΦA spec1 c
  | n + 1, hn => iprop(owns (c : Thread nD τ) scM1 fullShare (acc1 V c n hn)
      ∗ Pipeline.scopedRestBut (Ix := Unit) (Name := ℕ) (U := UR sig nD τ) (Lvl := ℕ) (Val := Elt F) spec1 c [cc1_scratch0]
      ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := Phi1 V c t.val (Nat.le_of_lt_succ t.isLt)
  q _ := fullShare
  owed _ := 0

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev scM2 : Memref sig .tc .vmem S1024x128 .f32 := Memref.whole cc2_scratch0

def slab2 (c : Dev nD) (t : Fin cfg2.N) : Vec F S2048x128 .bf16 :=
  View.ld (iblk2 V c 1 t) (Rect.unit (s := S16384x128) (k2_off1 (grid2.coords t)) S2048x128.size (k2_off1_inb (grid2.coords t)))

def acc2 (c : Dev nD) : (n : ℕ) → n < cfg2.N → Vec F S1024x128 .f32
  | 0, hn => k2_pay2 (iblk2 V c 0 ⟨0, hn⟩) (slab2 V c ⟨0, hn⟩) (k2_pay1 (F := F))
  | n + 1, hn => k2_pay2 (iblk2 V c 0 ⟨n + 1, hn⟩) (slab2 V c ⟨n + 1, hn⟩)
      (if (n + 1) % 8 = 0 then (k2_pay1 (F := F) : Vec F S1024x128 .f32) else acc2 c n (Nat.lt_of_succ_lt hn))

def Phi2 (c : Dev nD) : (n : ℕ) → n ≤ cfg2.N → sProp 𝕄
  | 0, _ => Pipeline.ΦA spec2 c
  | n + 1, hn => iprop(owns (c : Thread nD τ) scM2 fullShare (acc2 V c n hn)
      ∗ Pipeline.scopedRestBut (Ix := Unit) (Name := ℕ) (U := UR sig nD τ) (Lvl := ℕ) (Val := Elt F) spec2 c [cc2_scratch0]
      ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := Phi2 V c t.val (Nat.le_of_lt_succ t.isLt)
  q _ := fullShare
  owed _ := 0

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => k3_pay1 (iblk3 V c 0 t) (iblk3 V c 1 t) (iblk3 V c 2 t) (iblk3 V c 3 t) (iblk3 V c 4 t)
  Φ _ := Pipeline.ΦA spec3 c
  q _ := fullShare
  owed _ := 0

end Cert.KernelIdeal.Hand

end
-- ==== Proof.KI.Chain.lean ====
/- What each of the four grid computations leaves in its output array, each named in terms of the one before. -/
import proofs.«418033_j40699110097036_3_alg».proof.Proof.KI.Data
import proofs.«418033_j40699110097036_3_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

def outsA : Outs (F := F) := fun _ r c => m ((c : Thread nD τ).loc r)

abbrev ent0 : (c : Dev nD) → (b : Ref sig .tc) → Buf (Elt F) ((c : Thread nD τ).loc b) := fun c b => V0 m c b

def t1arr (c : Dev nD) : Buf (Elt F) ((c : Thread nD τ).loc main_v0) := (dat0 (ent0 m) c).arrAt 2 cfg0.N

def outsB : Outs (F := F) := fun J r c => if h : r = main_v0 then h ▸ t1arr m c else outsA m J r c

abbrev ent1 : (c : Dev nD) → (b : Ref sig .tc) → Buf (Elt F) ((c : Thread nD τ).loc b) := fun c b => V2 m (outsB m) c b

def t2arr (c : Dev nD) : Buf (Elt F) ((c : Thread nD τ).loc main_v2) := (dat1 (ent1 m) c).arrAt 3 cfg1.N

def outsC : Outs (F := F) := fun J r c => if h : r = main_v2 then h ▸ t2arr m c else outsB m J r c

abbrev ent2 : (c : Dev nD) → (b : Ref sig .tc) → Buf (Elt F) ((c : Thread nD τ).loc b) := fun c b => V3 m (outsC m) c b

def zarr (c : Dev nD) : Buf (Elt F) ((c : Thread nD τ).loc main_v3) := (dat2 (ent2 m) c).arrAt 2 cfg2.N

def outsD : Outs (F := F) := fun J r c => if h : r = main_v3 then h ▸ zarr m c else outsC m J r c

abbrev ent3 : (c : Dev nD) → (b : Ref sig .tc) → Buf (Elt F) ((c : Thread nD τ).loc b) := fun c b => V9 m (outsD m) c b

def resarr (c : Dev nD) : Buf (Elt F) ((c : Thread nD τ).loc main_v20) := (dat3 (ent3 m) c).arrAt 5 cfg3.N

def outsE : Outs (F := F) := fun J r c => if h : r = main_v20 then h ▸ resarr m c else outsD m J r c

end Cert.KernelIdeal.Hand

end
-- ==== Proof.KI.Reg0.lean ====
/- Call 0 (a row block of x times W1): the body meets its obligation at every grid point. -/
import proofs.«418033_j40699110097036_3_alg».proof.Proof.KI.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem A_eq0 (c : Dev nD) (w : Fin cfg0.W) : (dat0 V c).A w = V c (Pipeline.arrRef spec0 w) := by
  dsimp only [dat0]

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem off0_zero : (![0, 0] : Fin 2 → ℕ) = fun _ => 0 := funext fun a => by fin_cases a <;> rfl

set_option maxHeartbeats 1000000 in

theorem sound_kernel0 (c : Dev nD) (E : Set ℕ) (i : grid0.Coords)
    (arg1 : Memref sig .tc .vmem S2048x512 .f32) (harg1 : arg1.IsWhole)
    (arg2 : Memref sig .tc .vmem S512x256 .f32) (harg2 : arg2.IsWhole)
    (arg3 : Memref sig .tc .vmem S2048x256 .bf16) (harg3 : arg3.IsWhole)
    (x0 : Vec F S2048x512 .f32) (x1 : Vec F S512x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__small_matmul_kernel i arg1 harg1 arg2 harg2 arg3 harg3) K := by
  simp only [cc0__small_matmul_kernel_eq_skeleton]; unfold cc0__small_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero off0_zero inb_S2048x256_S2048x256_0_0 y⟩),
    View.canon_unit_zero off0_zero]
  simp only [View.readAt_eq_ld, View.ld_unit_zero (S := S2048x512) off0_zero, View.ld_unit_zero (S := S512x256) off0_zero]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay1 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := by
  intro t
  rw [bigSep_W0, bigSep_W0]
  exact sound_body0 V c t

end Cert.KernelIdeal.Hand

end
-- ==== Proof.KI.Reg1.lean ====
/- Call 1 (accumulate adj · t1 over column blocks, then max(., 0) · W2): the body meets its obligation at every grid point. -/
import proofs.«418033_j40699110097036_3_alg».proof.Proof.KI.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem A_eq1 (c : Dev nD) (w : Fin cfg1.W) : (dat1 V c).A w = V c (Pipeline.arrRef spec1 w) := by
  dsimp only [dat1]

abbrev cond1_0 (i : grid1.Coords) : Prop := (Scalar.cmpi .ne (Scalar.extui (Scalar.cmpi .eq (BitVec.ofNat 32 (i 1).val) 0#32)) 0#32) = 1#1

abbrev cond1_1 (i : grid1.Coords) : Prop := k1_cond2 i = 1#1

theorem hcond1_0 : ∀ t : Fin cfg1.N, cond1_0 (grid1.coords t) ↔ t.val % 8 = 0 :=
  (by decide +kernel : ∀ t : Fin grid1.N, cond1_0 (grid1.coords t) ↔ t.val % 8 = 0)

theorem hcond1_1 : ∀ t : Fin cfg1.N, cond1_1 (grid1.coords t) ↔ t.val % 8 = 7 :=
  (by decide +kernel : ∀ t : Fin grid1.N, cond1_1 (grid1.coords t) ↔ t.val % 8 = 7)

abbrev rS1 (i : grid1.Coords) : Rect S16384x256 := Rect.unit (s := S16384x256) (k1_off1 i) S2048x256.size (k1_off1_inb i)

theorem off1_zero : (![0, 0] : Fin 2 → ℕ) = fun _ => 0 := funext fun a => by fin_cases a <;> rfl

set_option maxHeartbeats 1000000 in

theorem sound_kernel1_A (c : Dev nD) (E : Set ℕ) (i : grid1.Coords)
    (arg2 : Memref sig .tc .vmem S1024x2048 .f32) (harg2 : arg2.IsWhole)
    (arg3 : Memref sig .tc .vmem S16384x256 .bf16) (harg3 : arg3.IsWhole)
    (arg4 : Memref sig .tc .vmem S256x128 .bf16) (harg4 : arg4.IsWhole)
    (arg5 : Memref sig .tc .vmem S1024x128 .bf16) (harg5 : arg5.IsWhole)
    (arg6 : Memref sig .tc .vmem S1024x256 .f32) (harg6 : arg6.IsWhole)
    (hc0 : cond1_0 i) (hc1 : ¬cond1_1 i)
    (x0 : Vec F S1024x2048 .f32) (x1 : Vec F S16384x256 .bf16) (x2 : Vec F S256x128 .bf16)
    (xi3 : Vec F S1024x128 .bf16) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare (k1_pay2 x0 (View.ld x1 (rS1 i)) (k1_pay1 (F := F)))) -∗ K ⟨⟩))
      ⊢ wp frame (wpE (defs₀ (F := F)) Variants.none c none) E (cc1__big_matmul1_kernel i arg2 harg2 arg3 harg3 arg4 harg4 arg5 harg5 arg6 harg6) K := by
  simp only [cc1__big_matmul1_kernel_eq_skeleton]; unfold cc1__big_matmul1_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  rw [View.read_writes_eq_canon _ _ _ (fun y => ⟨_, List.Mem.head _, View.mem_set_unit_zero off1_zero inb_S1024x256_S1024x256_0_0 y⟩),
    View.canon_cons_unit_zero off1_zero]
  simp only [View.readAt_eq_ld, View.ld_unit_zero (S := S1024x2048) off1_zero,
    View.readCov_unit_zero (S := S1024x256) _ off1_zero]
  rfl

set_option maxHeartbeats 1000000 in

theorem sound_kernel1_B (c : Dev nD) (E : Set ℕ) (i : grid1.Coords)
    (arg2 : Memref sig .tc .vmem S1024x2048 .f32) (harg2 : arg2.IsWhole)
    (arg3 : Memref sig .tc .vmem S16384x256 .bf16) (harg3 : arg3.IsWhole)
    (arg4 : Memref sig .tc .vmem S256x128 .bf16) (harg4 : arg4.IsWhole)
    (arg5 : Memref sig .tc .vmem S1024x128 .bf16) (harg5 : arg5.IsWhole)
    (arg6 : Memref sig .tc .vmem S1024x256 .f32) (harg6 : arg6.IsWhole)
    (hc0 : ¬cond1_0 i) (hc1 : ¬cond1_1 i)
    (x0 : Vec F S1024x2048 .f32) (x1 : Vec F S16384x256 .bf16) (x2 : Vec F S256x128 .bf16)
    (xi3 : Vec F S1024x128 .bf16) (xs : Vec F S1024x256 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi3
        ∗ owns (c : Thread nD τ) arg6 fullShare xs
        ∗ (iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare (k1_pay2 x0 (View.ld x1 (rS1 i)) xs)) -∗ K ⟨⟩))
      ⊢ wp frame (wpE (defs₀ (F := F)) Variants.none c none) E (cc1__big_matmul1_kernel i arg2 harg2 arg3 harg3 arg4 harg4 arg5 harg5 arg6 harg6) K := by
  simp only [cc1__big_matmul1_kernel_eq_skeleton]; unfold cc1__big_matmul1_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [View.read_writes_eq_canon _ _ _ (fun y => ⟨_, List.mem_singleton_self _, View.mem_set_unit_zero off1_zero inb_S1024x256_S1024x256_0_0 y⟩),
    View.canon_unit_zero off1_zero]
  simp only [View.readAt_eq_ld, View.ld_unit_zero (S := S1024x2048) off1_zero, View.ld_unit_zero (S := S1024x256) off1_zero]

set_option maxHeartbeats 1000000 in

theorem sound_kernel1_C (c : Dev nD) (E : Set ℕ) (i : grid1.Coords)
    (arg2 : Memref sig .tc .vmem S1024x2048 .f32) (harg2 : arg2.IsWhole)
    (arg3 : Memref sig .tc .vmem S16384x256 .bf16) (harg3 : arg3.IsWhole)
    (arg4 : Memref sig .tc .vmem S256x128 .bf16) (harg4 : arg4.IsWhole)
    (arg5 : Memref sig .tc .vmem S1024x128 .bf16) (harg5 : arg5.IsWhole)
    (arg6 : Memref sig .tc .vmem S1024x256 .f32) (harg6 : arg6.IsWhole)
    (hc0 : ¬cond1_0 i) (hc1 : cond1_1 i)
    (x0 : Vec F S1024x2048 .f32) (x1 : Vec F S16384x256 .bf16) (x2 : Vec F S256x128 .bf16)
    (xs : Vec F S1024x256 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ owns (c : Thread nD τ) arg6 fullShare xs
        ∗ (iprop(owns (c : Thread nD τ) arg2 fullShare x0 ∗ owns (c : Thread nD τ) arg3 fullShare x1
            ∗ owns (c : Thread nD τ) arg4 fullShare x2
            ∗ owns (c : Thread nD τ) arg5 fullShare (k1_pay3 (k1_pay2 x0 (View.ld x1 (rS1 i)) xs) x2)
            ∗ owns (c : Thread nD τ) arg6 fullShare (k1_pay2 x0 (View.ld x1 (rS1 i)) xs)) -∗ K ⟨⟩))
      ⊢ wp frame (wpE (defs₀ (F := F)) Variants.none c none) E (cc1__big_matmul1_kernel i arg2 harg2 arg3 harg3 arg4 harg4 arg5 harg5 arg6 harg6) K := by
  simp only [cc1__big_matmul1_kernel_eq_skeleton]; unfold cc1__big_matmul1_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (fun y => ⟨_, List.mem_singleton_self _, View.mem_set_unit_zero off1_zero inb_S1024x128_S1024x128_0_0 y⟩),
      View.canon_unit_zero off1_zero]
    simp only [View.readAt_eq_ld, View.ld_unit_zero (S := S1024x2048) off1_zero,
      View.ld_unit_zero (S := S1024x256) off1_zero, View.ld_unit_zero (S := S256x128) off1_zero,
      View.readCov_unit_zero (S := S1024x256) _ off1_zero]
    rfl
  iexists _; isplitr
  swap; · iexact HS
  ipureintro
  sl_unfold_words
  rw [View.read_writes_eq_canon _ _ _ (fun y => ⟨_, List.mem_singleton_self _, View.mem_set_unit_zero off1_zero inb_S1024x256_S1024x256_0_0 y⟩),
    View.canon_unit_zero off1_zero]
  simp only [View.readAt_eq_ld, View.ld_unit_zero (S := S1024x2048) off1_zero,
    View.ld_unit_zero (S := S1024x256) off1_zero]
  rfl

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl

theorem idleAt1_3 (t : Fin cfg1.N) (h : ¬cond1_1 (grid1.coords t)) : cfg1.idle 3 (grid1.coords t) = true := by
  show (!(k1_cond2 (grid1.coords t) == 1#1)) = true
  rw [Bool.not_eq_true', beq_eq_false_iff_ne]; exact h

theorem noFlush1_3 (t : Fin cfg1.N) (h : ¬t.val % 8 = 7) : (cfg1.win 3).flush t = false :=
  Bool.eq_false_iff.mpr fun hf => h ((flush1_3 t).mp hf)

theorem liveAt1_3 (t : Fin cfg1.N) (h : cond1_1 (grid1.coords t)) : cfg1.idle 3 (grid1.coords t) = false := by
  show (!(k1_cond2 (grid1.coords t) == 1#1)) = false
  rw [Bool.not_eq_false', beq_iff_eq]; exact h

theorem acc1_first (c : Dev nD) (t : Fin cfg1.N) (h0 : t.val % 8 = 0) :
    acc1 V c t.val t.isLt = k1_pay2 (iblk1 V c 0 t) (slab1 V c t) (k1_pay1 (F := F)) := by
  obtain ⟨n, hn⟩ := t
  cases n with
  | zero => rfl
  | succ n => exact congrArg (k1_pay2 (iblk1 V c 0 ⟨n + 1, hn⟩) (slab1 V c ⟨n + 1, hn⟩)) (if_pos h0)

theorem acc1_next (c : Dev nD) (t : Fin cfg1.N) (h0 : ¬t.val % 8 = 0) :
    acc1 V c t.val t.isLt = k1_pay2 (iblk1 V c 0 t) (slab1 V c t)
      (acc1 V c (t.val - 1) (Nat.lt_of_le_of_lt (Nat.sub_le _ _) t.isLt)) := by
  obtain ⟨n, hn⟩ := t
  cases n with
  | zero => exact absurd (Nat.zero_mod _) h0
  | succ n => exact congrArg (k1_pay2 (iblk1 V c 0 ⟨n + 1, hn⟩) (slab1 V c ⟨n + 1, hn⟩)) (if_neg h0)

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(owns (c : Thread nD τ) scM1 fullShare (acc1 V c n hn)
      ∗ Pipeline.scopedRestBut (Ix := Unit) (Name := ℕ) (U := UR sig nD τ) (Lvl := ℕ) (Val := Elt F) spec1 c [cc1_scratch0]
      ∗ (∃ r, prngReg c r)) := rfl

theorem Phi1_pos (c : Dev nD) (n : ℕ) (h : n ≤ cfg1.N) (hz : n ≠ 0) :
    Phi1 V c n h = iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]
      ∗ (∃ r, prngReg c r)) := by
  cases n with
  | zero => exact absurd rfl hz
  | succ n => rfl

theorem PhiA1_eq (c : Dev nD) :
    (Pipeline.ΦA spec1 c : sProp 𝕄)
      = iprop(((∃ d, owns (c : Thread nD τ) scM1 fullShare d)
          ∗ Pipeline.scopedRestBut (Ix := Unit) (Name := ℕ) (U := UR sig nD τ) (Lvl := ℕ) (Val := Elt F) spec1 c [cc1_scratch0])
        ∗ (∃ r, prngReg c r)) := by
  unfold Pipeline.ΦA
  rw [Pipeline.scopedRest_split_of_list spec1 c [cc1_scratch0] (by decide) (by decide)]
  simp only [bigSepL_singleton, scM1, owns_whole]
  try rfl

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (acc1 V c t.val t.isLt) (iblk1 V c 2 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem leaves1_0 (c : Dev nD) (t : Fin cfg1.N) :
    (dat1 V c).leavesExact 0 t = owns (c : Thread nD τ) (st1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (st1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (st1_2 t) fullShare (iblk1 V c 2 t) := by
  unfold Dat.leavesExact; rw [liveAt1_2 t, after1_2]

theorem leaves1_3 (c : Dev nD) (t : Fin cfg1.N) (h : cond1_1 (grid1.coords t)) :
    (dat1 V c).leavesExact 3 t = owns (c : Thread nD τ) (st1_3 t) fullShare (k1_pay3 (acc1 V c t.val t.isLt) (iblk1 V c 2 t)) := by
  unfold Dat.leavesExact; rw [liveAt1_3 t h, after1_3]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [leaves1_0, leaves1_1, leaves1_2]
  have hN : t.val < 128 := lt_of_lt_of_eq t.isLt (show cfg1.N = 128 from N_1)
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t h1)]
    rw [acc1_first V c t h0]
    by_cases hz : t.val = 0
    · rw [Phi1_castSucc V c t, Phi1_zero V c _ _ hz, PhiA1_eq]
      iintro ⟨⟨⟨HS, HR⟩, Hg⟩, Ho, ⟨%d0, H0⟩, ⟨%d1, H1⟩, ⟨%d2, H2⟩, ⟨%d3, H3⟩⟩
      iapply (sound_kernel1_A c Set.univ (grid1.coords t) _ _ _ _ _ _ _ _ _ _ hc0 hc1
        (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [Phi1_castSucc V c t, Phi1_pos V c _ _ hz]
      iintro ⟨⟨HS, HR, Hg⟩, Ho, ⟨%d0, H0⟩, ⟨%d1, H1⟩, ⟨%d2, H2⟩, ⟨%d3, H3⟩⟩
      iapply (sound_kernel1_A c Set.univ (grid1.coords t) _ _ _ _ _ _ _ _ _ _ hc0 hc1
        (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hc0 : ¬cond1_0 (grid1.coords t) := fun h => h0 ((hcond1_0 t).mp h)
    have hz : t.val ≠ 0 := fun e => h0 (by rw [e])
    rw [acc1_next V c t h0]
    rw [Phi1_castSucc V c t, Phi1_pos V c _ _ hz]
    by_cases h1 : t.val % 8 = 7
    · have hc1 : cond1_1 (grid1.coords t) := (hcond1_1 t).mpr h1
      rw [leaves1_3 V c t hc1, acc1_next V c t h0]
      iintro ⟨⟨HS, HR, Hg⟩, Ho, ⟨%d0, H0⟩, ⟨%d1, H1⟩, ⟨%d2, H2⟩, ⟨%d3, H3⟩⟩
      iapply (sound_kernel1_C c Set.univ (grid1.coords t) _ _ _ _ _ _ _ _ _ _ hc0 hc1
        (iblk1 V c 0 t) (iblk1 V c 1 t) (iblk1 V c 2 t)
        (acc1 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t h1)]
      iintro ⟨⟨HS, HR, Hg⟩, Ho, ⟨%d0, H0⟩, ⟨%d1, H1⟩, ⟨%d2, H2⟩, ⟨%d3, H3⟩⟩
      iapply (sound_kernel1_B c Set.univ (grid1.coords t) _ _ _ _ _ _ _ _ _ _ hc0 hc1
        (iblk1 V c 0 t) (iblk1 V c 1 t) (iblk1 V c 2 t) ((dat1 V c).before 3 t d3)
        (acc1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = Phi1 V c 0 (Nat.zero_le _) from rfl, Phi1_zero V c 0 _ rfl]
  try exact Idealize.SL.BI.Entails.refl _

theorem hout1 (c : Dev nD) : (dat1 V c).Φ (Fin.last cfg1.N) ⊢ (Pipeline.ΦA spec1 c : sProp 𝕄) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 128 := N_1; omega), PhiA1_eq]
  iintro ⟨HS, HR, Hg⟩
  isplitl [HS HR]
  · isplitl [HS]
    · iexists _; iexact HS
    iexact HR
  iexact Hg

end Cert.KernelIdeal.Hand

end
-- ==== Proof.KI.Reg2.lean ====
/- Call 2 (accumulate adj · t2 over column blocks): the body meets its obligation at every grid point. -/
import proofs.«418033_j40699110097036_3_alg».proof.Proof.KI.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem A_eq2 (c : Dev nD) (w : Fin cfg2.W) : (dat2 V c).A w = V c (Pipeline.arrRef spec2 w) := by
  dsimp only [dat2]

abbrev cond2_0 (i : grid2.Coords) : Prop :=
  (Scalar.cmpi .ne (Scalar.extui (Scalar.cmpi .eq (BitVec.ofNat 32 (i 1).val) 0#32)) 0#32) = 1#1

abbrev cond2_1 (i : grid2.Coords) : Prop := k2_cond2 i = 1#1

abbrev slabR2 (i : grid2.Coords) : Rect S16384x128 :=
  Rect.unit (s := S16384x128) (k2_off1 i) S2048x128.size (k2_off1_inb i)

theorem hcond2_0 : ∀ t : Fin cfg2.N, cond2_0 (grid2.coords t) ↔ t.val % 8 = 0 :=
  (by decide +kernel : ∀ t : Fin grid2.N, cond2_0 (grid2.coords t) ↔ t.val % 8 = 0)

theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel

theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel

theorem liveAt2_2 : ∀ t : Fin cfg2.N, cond2_1 (grid2.coords t) → cfg2.idle 2 (grid2.coords t) = false := by decide +kernel

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [show (dat2 V c).after 0 t = iblk2 V c 0 t from by dsimp only [dat2]]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [show (dat2 V c).after 1 t = iblk2 V c 1 t from by dsimp only [dat2]]; unfold Dat.blockOf iblk2; rw [A_eq2]; try rfl) t d).trans
    (by unfold Dat.fetched Dat.blockOf iblk2; rw [A_eq2]; try rfl)

theorem hz2 : (![0, 0] : Fin 2 → Nat) = fun _ => 0 := by funext a; fin_cases a <;> rfl

abbrev rW2 : Rect S1024x128 := Rect.unit (s := S1024x128) ![0, 0] S1024x128.size inb_S1024x128_S1024x128_0_0

theorem cover2 (p : Vec F S1024x128 .f32) (L : List (View.Piece (Elt F) S1024x128 .f32)) (y : S1024x128.Idx) :
    ∃ pc ∈ (⟨rW2, p⟩ :: L : List (View.Piece (Elt F) S1024x128 .f32)), y ∈ pc.1.set :=
  ⟨_, List.mem_cons_self .., View.mem_set_unit_zero (S := S1024x128) hz2 inb_S1024x128_S1024x128_0_0 y⟩

theorem read_store2 (v : View sig .tc .vmem S1024x128 .f32) (f : v.ty.Contents (Elt F)) (p : Vec F S1024x128 .f32)
    (L : List (View.Piece (Elt F) S1024x128 .f32)) :
    v.read (Elt F) (v.writes (Elt F) f (⟨rW2, p⟩ :: L)) = p :=
  (View.read_writes_eq_canon v f _ (cover2 p L)).trans
    (View.canon_cons_unit_zero (S := S1024x128) hz2 inb_S1024x128_S1024x128_0_0 p L)

set_option maxHeartbeats 1000000 in

theorem sound_kernel2_A (c : Dev nD) (E : Set ℕ) (i : grid2.Coords)
    (arg2 : Memref sig .tc .vmem S1024x2048 .f32) (harg2 : arg2.IsWhole)
    (arg3 : Memref sig .tc .vmem S16384x128 .bf16) (harg3 : arg3.IsWhole)
    (arg4 : Memref sig .tc .vmem S1024x128 .f32) (harg4 : arg4.IsWhole)
    (arg5 : Memref sig .tc .vmem S1024x128 .f32) (harg5 : arg5.IsWhole)
    (h1 : cond2_0 i) (h2 : ¬ cond2_1 i)
    (x0 : Vec F S1024x2048 .f32) (x1 : Vec F S16384x128 .bf16) (xi2 : Vec F S1024x128 .f32)
    (K : PUnit → sProp 𝕄) :
    iprop(owns (c : Thread nD τ) arg2 fullShare x0 ∗ owns (c : Thread nD τ) arg3 fullShare x1
        ∗ owns (c : Thread nD τ) arg4 fullShare xi2 ∗ (∃ d, owns (c : Thread nD τ) arg5 fullShare d)
        ∗ (iprop(owns (c : Thread nD τ) arg2 fullShare x0 ∗ owns (c : Thread nD τ) arg3 fullShare x1
            ∗ owns (c : Thread nD τ) arg4 fullShare xi2
            ∗ owns (c : Thread nD τ) arg5 fullShare (k2_pay2 x0 (View.ld x1 (slabR2 i)) (k2_pay1 (F := F)))) -∗ K ⟨⟩))
      ⊢ wp frame (wpE (defs₀ (F := F)) Variants.none c none) E (cc2__big_matmul2_kernel i arg2 harg2 arg3 harg3 arg4 harg4 arg5 harg5) K := by
  simp only [cc2__big_matmul2_kernel_eq_skeleton]; unfold cc2__big_matmul2_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_words
  refine (read_store2 _ _ _ _).trans ?_
  simp only [View.readAt_eq_ld, View.ld_unit_zero (S := S1024x2048) hz2, View.ld_unit_zero (S := S1024x128) hz2,
    View.readCov_unit_zero (S := S1024x128) _ hz2]
  rfl

set_option maxHeartbeats 1000000 in

theorem sound_kernel2_B (c : Dev nD) (E : Set ℕ) (i : grid2.Coords)
    (arg2 : Memref sig .tc .vmem S1024x2048 .f32) (harg2 : arg2.IsWhole)
    (arg3 : Memref sig .tc .vmem S16384x128 .bf16) (harg3 : arg3.IsWhole)
    (arg4 : Memref sig .tc .vmem S1024x128 .f32) (harg4 : arg4.IsWhole)
    (arg5 : Memref sig .tc .vmem S1024x128 .f32) (harg5 : arg5.IsWhole)
    (h1 : ¬ cond2_0 i) (h2 : ¬ cond2_1 i)
    (x0 : Vec F S1024x2048 .f32) (x1 : Vec F S16384x128 .bf16) (xi2 : Vec F S1024x128 .f32) (xs : Vec F S1024x128 .f32)
    (K : PUnit → sProp 𝕄) :
    iprop(owns (c : Thread nD τ) arg2 fullShare x0 ∗ owns (c : Thread nD τ) arg3 fullShare x1
        ∗ owns (c : Thread nD τ) arg4 fullShare xi2 ∗ owns (c : Thread nD τ) arg5 fullShare xs
        ∗ (iprop(owns (c : Thread nD τ) arg2 fullShare x0 ∗ owns (c : Thread nD τ) arg3 fullShare x1
            ∗ owns (c : Thread nD τ) arg4 fullShare xi2
            ∗ owns (c : Thread nD τ) arg5 fullShare (k2_pay2 x0 (View.ld x1 (slabR2 i)) xs)) -∗ K ⟨⟩))
      ⊢ wp frame (wpE (defs₀ (F := F)) Variants.none c none) E (cc2__big_matmul2_kernel i arg2 harg2 arg3 harg3 arg4 harg4 arg5 harg5) K := by
  simp only [cc2__big_matmul2_kernel_eq_skeleton]; unfold cc2__big_matmul2_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  refine (read_store2 _ _ _ _).trans ?_
  simp only [View.readAt_eq_ld, View.ld_unit_zero (S := S1024x2048) hz2, View.ld_unit_zero (S := S1024x128) hz2]

set_option maxHeartbeats 1000000 in

theorem sound_kernel2_C (c : Dev nD) (E : Set ℕ) (i : grid2.Coords)
    (arg2 : Memref sig .tc .vmem S1024x2048 .f32) (harg2 : arg2.IsWhole)
    (arg3 : Memref sig .tc .vmem S16384x128 .bf16) (harg3 : arg3.IsWhole)
    (arg4 : Memref sig .tc .vmem S1024x128 .f32) (harg4 : arg4.IsWhole)
    (arg5 : Memref sig .tc .vmem S1024x128 .f32) (harg5 : arg5.IsWhole)
    (h1 : ¬ cond2_0 i) (h2 : cond2_1 i)
    (x0 : Vec F S1024x2048 .f32) (x1 : Vec F S16384x128 .bf16) (xs : Vec F S1024x128 .f32)
    (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k2_pay2 x0 (View.ld x1 (slabR2 i)) xs)
            ∗ owns (c : Thread nD τ) arg5 fullShare (k2_pay2 x0 (View.ld x1 (slabR2 i)) xs)) -∗ K ⟨⟩))
      ⊢ wp frame (wpE (defs₀ (F := F)) Variants.none c none) E (cc2__big_matmul2_kernel i arg2 harg2 arg3 harg3 arg4 harg4 arg5 harg5) K := by
  simp only [cc2__big_matmul2_kernel_eq_skeleton]; unfold cc2__big_matmul2_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    refine (read_store2 _ _ _ _).trans ?_
    simp only [View.readAt_eq_ld, View.ld_unit_zero (S := S1024x2048) hz2, View.ld_unit_zero (S := S1024x128) hz2,
    View.readCov_unit_zero (S := S1024x128) _ hz2]
    rfl
  iexists _; isplitr
  swap; · iexact HS
  ipureintro
  sl_unfold_words
  refine (read_store2 _ _ _ _).trans ?_
  simp only [View.readAt_eq_ld, View.ld_unit_zero (S := S1024x2048) hz2, View.ld_unit_zero (S := S1024x128) hz2,
    View.readCov_unit_zero (S := S1024x128) _ hz2]
  rfl

theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [scM2, owns_whole]; try rfl

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(owns (c : Thread nD τ) scM2 fullShare (acc2 V c n hn)
      ∗ Pipeline.scopedRestBut (Ix := Unit) (Name := ℕ) (U := UR sig nD τ) (Lvl := ℕ) (Val := Elt F) spec2 c [cc2_scratch0]
      ∗ (∃ r, prngReg c r)) := rfl

theorem Phi2_pos (c : Dev nD) (n : ℕ) (h : n ≤ cfg2.N) (hz : n ≠ 0) :
    Phi2 V c n h = iprop(owns (c : Thread nD τ) scM2 fullShare (acc2 V c (n - 1) (by omega))
      ∗ Pipeline.scopedRestBut (Ix := Unit) (Name := ℕ) (U := UR sig nD τ) (Lvl := ℕ) (Val := Elt F) spec2 c [cc2_scratch0]
      ∗ (∃ r, prngReg c r)) := by
  cases n with
  | zero => exact absurd rfl hz
  | succ n => rfl

theorem Phi2_castSucc (c : Dev nD) (t : Fin cfg2.N) :
    (dat2 V c).Φ t.castSucc = Phi2 V c t.val (Nat.le_of_lt t.isLt) := by
  dsimp only [dat2]; simp only [Fin.coe_castSucc]

theorem acc2_first (c : Dev nD) (t : Fin cfg2.N) (h0 : t.val % 8 = 0) :
    acc2 V c t.val t.isLt = k2_pay2 (iblk2 V c 0 t) (slab2 V c t) (k2_pay1 (F := F)) := by
  obtain ⟨n, hn⟩ := t
  cases n with
  | zero => rfl
  | succ n => exact congrArg (k2_pay2 (iblk2 V c 0 ⟨n + 1, hn⟩) (slab2 V c ⟨n + 1, hn⟩)) (if_pos h0)

theorem acc2_next (c : Dev nD) (t : Fin cfg2.N) (h0 : ¬t.val % 8 = 0) :
    acc2 V c t.val t.isLt = k2_pay2 (iblk2 V c 0 t) (slab2 V c t)
      (acc2 V c (t.val - 1) (Nat.lt_of_le_of_lt (Nat.sub_le _ _) t.isLt)) := by
  obtain ⟨n, hn⟩ := t
  cases n with
  | zero => exact absurd (Nat.zero_mod _) h0
  | succ n => exact congrArg (k2_pay2 (iblk2 V c 0 ⟨n + 1, hn⟩) (slab2 V c ⟨n + 1, hn⟩)) (if_neg h0)

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

abbrev ms2_0 (t : Fin cfg2.N) : Memref sig .tc .vmem S1024x2048 .f32 := win2_0.stage (cfg2.slots t 0)
abbrev ms2_1 (t : Fin cfg2.N) : Memref sig .tc .vmem S16384x128 .bf16 := win2_1.stage (cfg2.slots t 1)
abbrev ms2_2 (t : Fin cfg2.N) : Memref sig .tc .vmem S1024x128 .f32 := win2_2.stage (cfg2.slots t 2)

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 128 := lt_of_lt_of_eq t.isLt (show cfg2.N = 128 from N_2)
  by_cases h0 : t.val % 8 = 0
  · have hc0 : cond2_0 (grid2.coords t) := (hcond2_0 t).mpr h0
    have hc1 : ¬cond2_1 (grid2.coords t) := fun h => by have := (hcond2_1 t).mp h; omega
    rw [Dat.leavesExact_idle (dat2 V c) 2 t (idleAt2_2 t hc1) (noFlush2_2 t hc1)]
    rw [acc2_first V c t h0]; unfold slab2
    by_cases hz : t.val = 0
    · rw [Phi2_castSucc V c t, Phi2_zero V c _ _ hz, PhiA2_eq]
      iintro ⟨⟨⟨HS, HR⟩, Hg⟩, Ho, ⟨%d0, H0⟩, ⟨%d1, H1⟩, ⟨%d2, H2⟩⟩
      iapply (sound_kernel2_A c Set.univ (grid2.coords t) _ _ _ _ _ _ _ _ hc0 hc1 (iblk2 V c 0 t) (iblk2 V c 1 t) ((dat2 V c).before 2 t d2) _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
    · rw [Phi2_castSucc V c t, Phi2_pos V c _ _ hz]
      iintro ⟨⟨HS, HR, Hg⟩, Ho, ⟨%d0, H0⟩, ⟨%d1, H1⟩, ⟨%d2, H2⟩⟩
      iapply (sound_kernel2_A c Set.univ (grid2.coords t) _ _ _ _ _ _ _ _ hc0 hc1 (iblk2 V c 0 t) (iblk2 V c 1 t) ((dat2 V c).before 2 t d2) _)
      isplitl [H0]; · iexact H0
      isplitl [H1]; · iexact H1
      isplitl [H2]; · iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
  · have hc0 : ¬cond2_0 (grid2.coords t) := fun h => h0 ((hcond2_0 t).mp h)
    have hz : t.val ≠ 0 := fun h => h0 (by rw [h])
    rw [acc2_next V c t h0]; unfold slab2
    rw [Phi2_castSucc V c t, Phi2_pos V c _ _ hz]
    by_cases h7 : t.val % 8 = 7
    · have hc1 : cond2_1 (grid2.coords t) := (hcond2_1 t).mpr h7
      rw [show (dat2 V c).leavesExact 2 t = owns (c : Thread nD τ) (ms2_2 t) fullShare ((dat2 V c).after 2 t) from by
        unfold Dat.leavesExact; rw [liveAt2_2 t hc1], after2_2, acc2_next V c t h0]; unfold slab2
      iintro ⟨⟨HS, HR, Hg⟩, Ho, ⟨%d0, H0⟩, ⟨%d1, H1⟩, ⟨%d2, H2⟩⟩
      iapply (sound_kernel2_C c Set.univ (grid2.coords t) _ _ _ _ _ _ _ _ hc0 hc1 (iblk2 V c 0 t) (iblk2 V c 1 t)
        (acc2 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · have hc1 : ¬cond2_1 (grid2.coords t) := fun h => h7 ((hcond2_1 t).mp h)
      rw [Dat.leavesExact_idle (dat2 V c) 2 t (idleAt2_2 t hc1) (noFlush2_2 t hc1)]
      iintro ⟨⟨HS, HR, Hg⟩, Ho, ⟨%d0, H0⟩, ⟨%d1, H1⟩, ⟨%d2, H2⟩⟩
      iapply (sound_kernel2_B c Set.univ (grid2.coords t) _ _ _ _ _ _ _ _ hc0 hc1 (iblk2 V c 0 t) (iblk2 V c 1 t) ((dat2 V c).before 2 t d2)
        (acc2 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := by
  rw [show (dat2 V c).Φ 0 = Phi2 V c 0 (Nat.zero_le _) from rfl, Phi2_zero V c 0 _ rfl]

theorem hout2 (c : Dev nD) : (dat2 V c).Φ (Fin.last cfg2.N) ⊢ (Pipeline.ΦA spec2 c : sProp 𝕄) := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 128 := N_2; omega), PhiA2_eq]
  iintro ⟨HS, HR, Hg⟩
  isplitl [HS HR]
  · isplitl [HS]
    · iexists _; iexact HS
    iexact HR
  iexact Hg

end Cert.KernelIdeal.Hand

end
-- ==== Proof.KI.Reg3.lean ====
/- Call 3 (two rows to a logistic value): the body meets its obligation at every grid point. -/
import proofs.«418033_j40699110097036_3_alg».proof.Proof.KI.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem A_eq3 (c : Dev nD) (w : Fin cfg3.W) : (dat3 V c).A w = V c (Pipeline.arrRef spec3 w) := by
  dsimp only [dat3]

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem off3_zero : (![0, 0] : Fin 2 → ℕ) = fun _ => 0 := funext fun a => by fin_cases a <;> rfl

set_option maxHeartbeats 1000000 in

theorem sound_kernel3 (c : Dev nD) (E : Set ℕ) (i : grid3.Coords)
    (arg1 : Memref sig .tc .vmem S8000x128 .f32) (harg1 : arg1.IsWhole)
    (arg2 : Memref sig .tc .vmem S8000x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S8000x1 .f32) (harg6 : arg6.IsWhole)
    (x0 : Vec F S8000x128 .f32) (x1 : Vec F S8000x128 .f32) (x2 : Vec F S1x128 .f32) (x3 : Vec F S1x128 .f32)
    (x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (k3_pay1 x0 x1 x2 x3 x4)) -∗ K ⟨⟩))
      ⊢ wp frame (wpE (defs₀ (F := F)) Variants.none c none) E
          (cc3__decode_kernel i arg1 harg1 arg2 harg2 arg3 harg3 arg4 harg4 arg5 harg5 arg6 harg6) K := by
  simp only [cc3__decode_kernel_eq_skeleton]; unfold cc3__decode_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_singleton_self _, View.mem_set_unit_zero off3_zero inb_S8000x1_S8000x1_0_0 y⟩),
    View.canon_unit_zero off3_zero]
  simp only [View.readAt_eq_ld, View.ld_unit_zero (S := S8000x128) off3_zero, View.ld_unit_zero (S := S1x128) off3_zero]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = k3_pay1 (iblk3 V c 0 t) (iblk3 V c 1 t) (iblk3 V c 2 t) (iblk3 V c 3 t) (iblk3 V c 4 t) := by
  dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := by
  intro t
  rw [bigSep_W3, bigSep_W3]
  exact sound_body3 V c t

end Cert.KernelIdeal.Hand

end
-- ==== Proof.KI.Run.lean ====
/- The whole program, segment by segment: it runs to the end from any launch memory, the result is what call 3 writes back, the arguments end as launched. -/
import proofs.«418033_j40699110097036_3_alg».proof.Proof.KI.Chain
import proofs.«418033_j40699110097036_3_alg».proof.Proof.KI.Reg0
import proofs.«418033_j40699110097036_3_alg».proof.Proof.KI.Reg1
import proofs.«418033_j40699110097036_3_alg».proof.Proof.KI.Reg2
import proofs.«418033_j40699110097036_3_alg».proof.Proof.KI.Reg3

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem outsE_v0 (J : ℕ) (c : Dev nD) : outsE m J main_v0 c = t1arr m c := by
  unfold outsE outsD outsC outsB
  rw [dif_neg (by decide), dif_neg (by decide), dif_neg (by decide), dif_pos rfl]
theorem outsB_v0 (J : ℕ) (c : Dev nD) : outsB m J main_v0 c = t1arr m c := by
  unfold outsB
  rw [dif_pos rfl]
theorem outsC_v0 (J : ℕ) (c : Dev nD) : outsC m J main_v0 c = t1arr m c := by
  unfold outsC outsB
  rw [dif_neg (by decide), dif_pos rfl]
theorem outsD_v0 (J : ℕ) (c : Dev nD) : outsD m J main_v0 c = t1arr m c := by
  unfold outsD outsC outsB
  rw [dif_neg (by decide), dif_neg (by decide), dif_pos rfl]

theorem outsE_v2 (J : ℕ) (c : Dev nD) : outsE m J main_v2 c = t2arr m c := by
  unfold outsE outsD outsC
  rw [dif_neg (by decide), dif_neg (by decide), dif_pos rfl]
theorem outsC_v2 (J : ℕ) (c : Dev nD) : outsC m J main_v2 c = t2arr m c := by
  unfold outsC
  rw [dif_pos rfl]
theorem outsD_v2 (J : ℕ) (c : Dev nD) : outsD m J main_v2 c = t2arr m c := by
  unfold outsD outsC
  rw [dif_neg (by decide), dif_pos rfl]

theorem outsE_v3 (J : ℕ) (c : Dev nD) : outsE m J main_v3 c = zarr m c := by
  unfold outsE outsD
  rw [dif_neg (by decide), dif_pos rfl]
theorem outsD_v3 (J : ℕ) (c : Dev nD) : outsD m J main_v3 c = zarr m c := by
  unfold outsD
  rw [dif_pos rfl]

theorem outsE_v20 (J : ℕ) (c : Dev nD) : outsE m J main_v20 c = resarr m c := by
  unfold outsE
  rw [dif_pos rfl]

theorem V2_congr {o o' : Outs (F := F)} (c : Dev nD) (h1 : o 1 main_v0 c = o' 1 main_v0 c) : V2 m o c = V2 m o' c := by
  unfold V2 V1; rw [h1]
theorem V3_congr {o o' : Outs (F := F)} (c : Dev nD) (h1 : o 1 main_v0 c = o' 1 main_v0 c) (h3 : o 3 main_v2 c = o' 3 main_v2 c) :
    V3 m o c = V3 m o' c := by
  unfold V3; rw [V2_congr m c h1, h3]
theorem V9_congr {o o' : Outs (F := F)} (c : Dev nD) (h1 : o 1 main_v0 c = o' 1 main_v0 c) (h3 : o 3 main_v2 c = o' 3 main_v2 c)
    (h4 : o 4 main_v3 c = o' 4 main_v3 c) : V9 m o c = V9 m o' c := by
  unfold V9 V8 V7 V6 V5 V4; rw [V3_congr m c h1 h3, h4]

theorem V2E_eq (c : Dev nD) : V2 m (outsE m) c = V2 m (outsB m) c :=
  V2_congr m c ((outsE_v0 m 1 c).trans (outsB_v0 m 1 c).symm)

theorem V3E_eq (c : Dev nD) : V3 m (outsE m) c = V3 m (outsC m) c :=
  V3_congr m c ((outsE_v0 m 1 c).trans (outsC_v0 m 1 c).symm) ((outsE_v2 m 3 c).trans (outsC_v2 m 3 c).symm)

theorem V9E_eq (c : Dev nD) : V9 m (outsE m) c = V9 m (outsD m) c :=
  V9_congr m c ((outsE_v0 m 1 c).trans (outsD_v0 m 1 c).symm) ((outsE_v2 m 3 c).trans (outsD_v2 m 3 c).symm)
    ((outsE_v3 m 4 c).trans (outsD_v3 m 4 c).symm)

abbrev ex0 : (c : Dev nD) → (b : Ref sig .tc) → Buf (Elt F) ((c : Thread nD τ).loc b) := fun c b => V1 m (outsE m) c b
abbrev ex1 : (c : Dev nD) → (b : Ref sig .tc) → Buf (Elt F) ((c : Thread nD τ).loc b) := fun c b => V3 m (outsE m) c b
abbrev ex2 : (c : Dev nD) → (b : Ref sig .tc) → Buf (Elt F) ((c : Thread nD τ).loc b) := fun c b => V4 m (outsE m) c b
abbrev ex3 : (c : Dev nD) → (b : Ref sig .tc) → Buf (Elt F) ((c : Thread nD τ).loc b) := fun c b => V10 m (outsE m) c b

theorem hF0_0 (c : Dev nD) : (dat0 (ent0 m) c).arrAt 0 cfg0.N = ex0 m c (Pipeline.arrRef spec0 0) :=
  ((dat0 (ent0 m) c).arrAt_in 0 rfl _).trans ((A_eq0 (ent0 m) c 0).trans ((V1_of m (outsE m) c _ (by decide)).symm))
theorem hF0_1 (c : Dev nD) : (dat0 (ent0 m) c).arrAt 1 cfg0.N = ex0 m c (Pipeline.arrRef spec0 1) :=
  ((dat0 (ent0 m) c).arrAt_in 1 rfl _).trans ((A_eq0 (ent0 m) c 1).trans ((V1_of m (outsE m) c _ (by decide)).symm))
theorem hF0_2 (c : Dev nD) : (dat0 (ent0 m) c).arrAt 2 cfg0.N = ex0 m c (Pipeline.arrRef spec0 2) := by
  show t1arr m c = V1 m (outsE m) c main_v0
  simp only [V1, Function.update_self, outsE_v0]
theorem hF0 (c : Dev nD) : ∀ w : Fin cfg0.W, (dat0 (ent0 m) c).arrAt w cfg0.N = ex0 m c (Pipeline.arrRef spec0 w)
  | ⟨0, _⟩ => hF0_0 m c
  | ⟨1, _⟩ => hF0_1 m c
  | ⟨2, _⟩ => hF0_2 m c
theorem hrest0 (c : Dev nD) : ∀ b, b ∉ Finset.univ.image (Pipeline.arrRef spec0) → ex0 m c b = ent0 m c b :=
  fun b hb => V1_of m (outsE m) c b fun h => hb (Finset.mem_image.mpr ⟨2, Finset.mem_univ _, by rw [List.mem_singleton.mp h]⟩)

theorem ent1_ex1 (c : Dev nD) (r : Ref sig .tc) (h : r ∉ ([main_v2] : List (Ref sig .tc))) : ent1 m c r = ex1 m c r :=
  (congrFun (V2E_eq m c).symm _).trans (V3_of m (outsE m) c r h).symm
theorem hF1_0 (c : Dev nD) : (dat1 (ent1 m) c).arrAt 0 cfg1.N = ex1 m c (Pipeline.arrRef spec1 0) :=
  ((dat1 (ent1 m) c).arrAt_in 0 rfl _).trans ((A_eq1 (ent1 m) c 0).trans (ent1_ex1 m c _ (by decide)))
theorem hF1_1 (c : Dev nD) : (dat1 (ent1 m) c).arrAt 1 cfg1.N = ex1 m c (Pipeline.arrRef spec1 1) :=
  ((dat1 (ent1 m) c).arrAt_in 1 rfl _).trans ((A_eq1 (ent1 m) c 1).trans (ent1_ex1 m c _ (by decide)))
theorem hF1_2 (c : Dev nD) : (dat1 (ent1 m) c).arrAt 2 cfg1.N = ex1 m c (Pipeline.arrRef spec1 2) :=
  ((dat1 (ent1 m) c).arrAt_in 2 rfl _).trans ((A_eq1 (ent1 m) c 2).trans (ent1_ex1 m c _ (by decide)))
theorem hF1_3 (c : Dev nD) : (dat1 (ent1 m) c).arrAt 3 cfg1.N = ex1 m c (Pipeline.arrRef spec1 3) := by
  show t2arr m c = V3 m (outsE m) c main_v2
  simp only [V3, Function.update_self, outsE_v2]
theorem hF1 (c : Dev nD) : ∀ w : Fin cfg1.W, (dat1 (ent1 m) c).arrAt w cfg1.N = ex1 m c (Pipeline.arrRef spec1 w)
  | ⟨0, _⟩ => hF1_0 m c
  | ⟨1, _⟩ => hF1_1 m c
  | ⟨2, _⟩ => hF1_2 m c
  | ⟨3, _⟩ => hF1_3 m c
theorem hrest1 (c : Dev nD) : ∀ b, b ∉ Finset.univ.image (Pipeline.arrRef spec1) → ex1 m c b = ent1 m c b :=
  fun b hb => (ent1_ex1 m c b fun h => hb (Finset.mem_image.mpr ⟨3, Finset.mem_univ _, by rw [List.mem_singleton.mp h]⟩)).symm

theorem ent2_ex2 (c : Dev nD) (r : Ref sig .tc) (h : r ∉ ([main_v3] : List (Ref sig .tc))) : ent2 m c r = ex2 m c r :=
  (congrFun (V3E_eq m c).symm _).trans (V4_of m (outsE m) c r h).symm
theorem hF2_0 (c : Dev nD) : (dat2 (ent2 m) c).arrAt 0 cfg2.N = ex2 m c (Pipeline.arrRef spec2 0) :=
  ((dat2 (ent2 m) c).arrAt_in 0 rfl _).trans ((A_eq2 (ent2 m) c 0).trans (ent2_ex2 m c _ (by decide)))
theorem hF2_1 (c : Dev nD) : (dat2 (ent2 m) c).arrAt 1 cfg2.N = ex2 m c (Pipeline.arrRef spec2 1) :=
  ((dat2 (ent2 m) c).arrAt_in 1 rfl _).trans ((A_eq2 (ent2 m) c 1).trans (ent2_ex2 m c _ (by decide)))
theorem hF2_2 (c : Dev nD) : (dat2 (ent2 m) c).arrAt 2 cfg2.N = ex2 m c (Pipeline.arrRef spec2 2) := by
  show zarr m c = V4 m (outsE m) c main_v3
  simp only [V4, Function.update_self, outsE_v3]
theorem hF2 (c : Dev nD) : ∀ w : Fin cfg2.W, (dat2 (ent2 m) c).arrAt w cfg2.N = ex2 m c (Pipeline.arrRef spec2 w)
  | ⟨0, _⟩ => hF2_0 m c
  | ⟨1, _⟩ => hF2_1 m c
  | ⟨2, _⟩ => hF2_2 m c
theorem hrest2 (c : Dev nD) : ∀ b, b ∉ Finset.univ.image (Pipeline.arrRef spec2) → ex2 m c b = ent2 m c b :=
  fun b hb => (ent2_ex2 m c b fun h => hb (Finset.mem_image.mpr ⟨2, Finset.mem_univ _, by rw [List.mem_singleton.mp h]⟩)).symm

theorem ent3_ex3 (c : Dev nD) (r : Ref sig .tc) (h : r ∉ ([main_v20] : List (Ref sig .tc))) : ent3 m c r = ex3 m c r :=
  (congrFun (V9E_eq m c).symm _).trans (V10_of m (outsE m) c r h).symm
theorem hF3_0 (c : Dev nD) : (dat3 (ent3 m) c).arrAt 0 cfg3.N = ex3 m c (Pipeline.arrRef spec3 0) :=
  ((dat3 (ent3 m) c).arrAt_in 0 rfl _).trans ((A_eq3 (ent3 m) c 0).trans (ent3_ex3 m c _ (by decide)))
theorem hF3_1 (c : Dev nD) : (dat3 (ent3 m) c).arrAt 1 cfg3.N = ex3 m c (Pipeline.arrRef spec3 1) :=
  ((dat3 (ent3 m) c).arrAt_in 1 rfl _).trans ((A_eq3 (ent3 m) c 1).trans (ent3_ex3 m c _ (by decide)))
theorem hF3_2 (c : Dev nD) : (dat3 (ent3 m) c).arrAt 2 cfg3.N = ex3 m c (Pipeline.arrRef spec3 2) :=
  ((dat3 (ent3 m) c).arrAt_in 2 rfl _).trans ((A_eq3 (ent3 m) c 2).trans (ent3_ex3 m c _ (by decide)))
theorem hF3_3 (c : Dev nD) : (dat3 (ent3 m) c).arrAt 3 cfg3.N = ex3 m c (Pipeline.arrRef spec3 3) :=
  ((dat3 (ent3 m) c).arrAt_in 3 rfl _).trans ((A_eq3 (ent3 m) c 3).trans (ent3_ex3 m c _ (by decide)))
theorem hF3_4 (c : Dev nD) : (dat3 (ent3 m) c).arrAt 4 cfg3.N = ex3 m c (Pipeline.arrRef spec3 4) :=
  ((dat3 (ent3 m) c).arrAt_in 4 rfl _).trans ((A_eq3 (ent3 m) c 4).trans (ent3_ex3 m c _ (by decide)))
theorem hF3_5 (c : Dev nD) : (dat3 (ent3 m) c).arrAt 5 cfg3.N = ex3 m c (Pipeline.arrRef spec3 5) := by
  show resarr m c = V10 m (outsE m) c main_v20
  simp only [V10, Function.update_self, outsE_v20]
theorem hF3 (c : Dev nD) : ∀ w : Fin cfg3.W, (dat3 (ent3 m) c).arrAt w cfg3.N = ex3 m c (Pipeline.arrRef spec3 w)
  | ⟨0, _⟩ => hF3_0 m c
  | ⟨1, _⟩ => hF3_1 m c
  | ⟨2, _⟩ => hF3_2 m c
  | ⟨3, _⟩ => hF3_3 m c
  | ⟨4, _⟩ => hF3_4 m c
  | ⟨5, _⟩ => hF3_5 m c
theorem hrest3 (c : Dev nD) : ∀ b, b ∉ Finset.univ.image (Pipeline.arrRef spec3) → ex3 m c b = ent3 m c b :=
  fun b hb => (ent3_ex3 m c b fun h => hb (Finset.mem_image.mpr ⟨5, Finset.mem_univ _, by rw [List.mem_singleton.mp h]⟩)).symm

def kdats : (p : Fin 4) → (c : Dev nD) → Dat τ (Elt F) Unit ℕ (UR sig nD τ) ℕ (cfgs p) c
  | ⟨0, _⟩ => fun c => dat0 (ent0 m) c
  | ⟨1, _⟩ => fun c => dat1 (ent1 m) c
  | ⟨2, _⟩ => fun c => dat2 (ent2 m) c
  | ⟨3, _⟩ => fun c => dat3 (ent3 m) c

abbrev Lz : GSem nD τ sig → Finset Unit := fun _ => ∅
abbrev lvz : GSem nD τ sig → Unit → ℕ := fun _ _ => 0

abbrev Rst (c : Dev nD) : sProp 𝕄 := iprop((∃ r, prngReg c r) ∗ ∃ W, owes (c : Thread nD τ) (0 : CellTallies nD τ sig Unit) W)

set_option backward.isDefEq.respectTransparency.types false in

def kreg0 : Pipeline.RegionSeg (pcfgs (F := F)) adm (kdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ Lz lvz 0 fun _ _ => rfl
  pre c := iprop(StableHlo.held (c : Thread nD τ) (Pipeline.ucRefs τ sig) (V0 m c) ∗ Rst c)
  post c := iprop(StableHlo.held (c : Thread nD τ) (Pipeline.ucRefs τ sig) (V1 m (outsE m) c) ∗ Rst c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (kdats m) launch0.win launch0.arr_whole c
      ((kdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (kdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (kdats m) ((kdats m 0 c).share_full fun _ => rfl)
      (ent0 m c) (ex0 m c) ((kdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def kreg1 : Pipeline.RegionSeg (pcfgs (F := F)) adm (kdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ Lz lvz 1 fun _ _ => rfl
  pre c := iprop(StableHlo.held (c : Thread nD τ) (Pipeline.ucRefs τ sig) (V2 m (outsB m) c) ∗ Rst c)
  post c := iprop(StableHlo.held (c : Thread nD τ) (Pipeline.ucRefs τ sig) (V3 m (outsE m) c) ∗ Rst c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) adm (kdats m) launch1.win launch1.arr_whole c
      ((kdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kdats m 1 c).Φ 0 = (dat1 (ent1 m) c).Φ 0 from rfl]
    refine .trans ?_ (hin1 (ent1 m) c)
    unfold Pipeline.ΦA
    iintro ⟨Hp, -, Hr⟩
    isplitl [Hr]; · iexact Hr
    iexact Hp
  hout c := by
    rw [Pipeline.ownSems0_none, show (kdats m 1 c).Φ (Fin.last _) = (dat1 (ent1 m) c).Φ (Fin.last cfg1.N) from rfl]
    refine (hout1 (ent1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (kdats m) ((kdats m 1 c).share_full fun _ => rfl)
      (ent1 m c) (ex1 m c) ((kdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def kreg2 : Pipeline.RegionSeg (pcfgs (F := F)) adm (kdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (ent2 m) c).loose
  hwaits := Pipeline.hwaits_of_owed_zero _ _ _ _ Lz lvz 2 fun _ _ => rfl
  pre c := iprop(StableHlo.held (c : Thread nD τ) (Pipeline.ucRefs τ sig) (V3 m (outsC m) c) ∗ Rst c)
  post c := iprop(StableHlo.held (c : Thread nD τ) (Pipeline.ucRefs τ sig) (V4 m (outsE m) c) ∗ Rst c)
  X c := iprop(∃ r, prngReg c r)
  Y c := iprop(∃ r, prngReg c r)
  Z c := Pipeline.unscopedRest (Ix := Unit) (Name := ℕ) (U := UR sig nD τ) (Lvl := ℕ) spec2 c (ent2 m c)
  hentry c := by
    rw [Pipeline.ownSems0_none]
    have hsplit := Pipeline.arrays_of_unscopedBufs (p := 2) (pcfgs (F := F)) adm (kdats m) launch2.win launch2.arr_whole c
      ((kdats m 2 c).share_full fun _ => rfl) (ent2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kdats m 2 c).Φ 0 = (dat2 (ent2 m) c).Φ 0 from rfl]
    refine .trans ?_ (hin2 (ent2 m) c)
    unfold Pipeline.ΦA
    iintro ⟨Hp, -, Hr⟩
    isplitl [Hr]; · iexact Hr
    iexact Hp
  hout c := by
    rw [Pipeline.ownSems0_none, show (kdats m 2 c).Φ (Fin.last _) = (dat2 (ent2 m) c).Φ (Fin.last cfg2.N) from rfl]
    refine (hout2 (ent2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (kdats m) ((kdats m 2 c).share_full fun _ => rfl)
      (ent2 m c) (ex2 m c) ((kdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def kreg3 : Pipeline.RegionSeg (pcfgs (F := F)) adm (kdats m) () defs₀ Variants.none Lz lvz 3 where
  win := launch3.win.to₀
  block_pos := launch3.block_pos
  stage_whole := launch3.stage_whole
  K := PEmpty
  osem k := k.elim
  ho := Pipeline.OwnSemFacts.none _
  hbody c := (body_obligation3 (ent3 m) c).loose
  hwaits := Pipeline.hwaits_of_owed_zero _ _ _ _ Lz lvz 3 fun _ _ => rfl
  pre c := iprop(StableHlo.held (c : Thread nD τ) (Pipeline.ucRefs τ sig) (V9 m (outsD m) c) ∗ Rst c)
  post c := iprop(StableHlo.held (c : Thread nD τ) (Pipeline.ucRefs τ sig) (V10 m (outsE m) c) ∗ Rst c)
  X c := iprop(∃ r, prngReg c r)
  Y c := iprop(∃ r, prngReg c r)
  Z c := Pipeline.unscopedRest (Ix := Unit) (Name := ℕ) (U := UR sig nD τ) (Lvl := ℕ) spec3 c (ent3 m c)
  hentry c := by
    rw [Pipeline.ownSems0_none]
    have hsplit := Pipeline.arrays_of_unscopedBufs (p := 3) (pcfgs (F := F)) adm (kdats m) launch3.win launch3.arr_whole c
      ((kdats m 3 c).share_full fun _ => rfl) (ent3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (kdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (kdats m) ((kdats m 3 c).share_full fun _ => rfl)
      (ent3 m c) (ex3 m c) ((kdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

theorem value_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : Pipeline.RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : Pipeline.RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    (R2 : Pipeline.RegionSeg (pcfgs (F := F)) adm pdats ι defs₀ 𝒱₀ L lv 2)
    (hpre2 : ∀ c : Dev nD, iprop(StableHlo.held (c : Thread nD τ) (Pipeline.ucRefs τ sig) (V3 m outs c) ∗ E 2 c) ⊢ R2.pre c)
    (hpost2 : ∀ c : Dev nD, R2.post c ⊢ iprop(StableHlo.held (c : Thread nD τ) (Pipeline.ucRefs τ sig) (V4 m outs c) ∗ E 3 c))
    (R3 : Pipeline.RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c)) :
    θ_run defs (onTc (τ := τ) (main (F := F))) ⟨m, fun _ => 0, ρ⟩ (fun r => ∀ c : Dev nD,
      r.2.mem ((c.tc : Thread nD τ).loc main_v20) = outs 10 main_v20 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Pipeline.Seg.run_eq_chain,
        show (segs m outs 𝒱₀ L lv E ι pdats R0 R1 R2 R3 c).map Pipeline.Seg.prog = [
          Prog.lift (.customCall (Pipeline.entry 0) ()),
          StableHlo.seq hostOps1,
          Prog.lift (.customCall (Pipeline.entry 1) ()),
          Prog.lift (.customCall (Pipeline.entry 2) ()),
          StableHlo.seq hostOps3,
          StableHlo.seq hostOps3_1,
          StableHlo.seq hostOps3_2,
          StableHlo.seq hostOps3_3,
          StableHlo.seq hostOps3_4,
          Prog.lift (.customCall (Pipeline.entry 3) ()) ] from rfl]
      exact .rfl)
    (fun c => by simp only [segs, Pipeline.Seg.pipes_host, Pipeline.Seg.pipes_region, Pipeline.Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m outs c))
    (hch := fun c => ⟨hpre0 c, hpost0 c, hpre1 c, (hpost1 c).trans (hpre2 c), hpost2 c, .rfl, .rfl, .rfl, .rfl, hpre3 c, (hpost3 c).trans (sep_mono .rfl (hE4 c))⟩)
    (hinit := ?_) (QY := fun c s => s.mem ((c.tc : Thread nD τ).loc main_v20) = outs 10 main_v20 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V10 m outs c) s') $$ [Hh HSI]
    · isplitl [Hh] <;> iassumption
    icases Hr with ⟨%h, HSI⟩
    imodintro
    isplitr
    · ipureintro
      exact ⟨(h (Proc.devRef .tc main_v20) (Finset.mem_filter.mpr ⟨StableHlo.devRef_mem_tcRefs main_v20, by decide⟩)).trans (by simp only [V10, Function.update_self]),
        (h (Proc.devRef .tc main_arg0) (Finset.mem_filter.mpr ⟨StableHlo.devRef_mem_tcRefs main_arg0, by decide⟩)).trans (V10_main_arg0 m outs c),
        (h (Proc.devRef .tc main_arg1) (Finset.mem_filter.mpr ⟨StableHlo.devRef_mem_tcRefs main_arg1, by decide⟩)).trans (V10_main_arg1 m outs c),
        (h (Proc.devRef .tc main_arg2) (Finset.mem_filter.mpr ⟨StableHlo.devRef_mem_tcRefs main_arg2, by decide⟩)).trans (V10_main_arg2 m outs c),
        (h (Proc.devRef .tc main_arg3) (Finset.mem_filter.mpr ⟨StableHlo.devRef_mem_tcRefs main_arg3, by decide⟩)).trans (V10_main_arg3 m outs c),
        (h (Proc.devRef .tc main_arg4) (Finset.mem_filter.mpr ⟨StableHlo.devRef_mem_tcRefs main_arg4, by decide⟩)).trans (V10_main_arg4 m outs c),
        (h (Proc.devRef .tc main_arg5) (Finset.mem_filter.mpr ⟨StableHlo.devRef_mem_tcRefs main_arg5, by decide⟩)).trans (V10_main_arg5 m outs c),
        (h (Proc.devRef .tc main_arg6) (Finset.mem_filter.mpr ⟨StableHlo.devRef_mem_tcRefs main_arg6, by decide⟩)).trans (V10_main_arg6 m outs c),
        (h (Proc.devRef .tc main_arg7) (Finset.mem_filter.mpr ⟨StableHlo.devRef_mem_tcRefs main_arg7, by decide⟩)).trans (V10_main_arg7 m outs c)⟩
    · iexact HSI

theorem launch_elt : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem launch_rest : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts Lz lvz)
    ⊢ (|={Set.univ}=> bigSep Finset.univ (fun c : Dev nD => Rst (F := F) c) : sProp 𝕄) := by
  refine Pipeline.initEach Lz lvz fun c => ?_
  iintro ⟨⟨-, HO, -, Hp, -⟩, -⟩
  imodintro
  isplitl [Hp]; · iexists _; iexact Hp
  iexists ∅; iexact HO

set_option backward.isDefEq.respectTransparency.types false in

theorem run_main : θ_run defs (onTc (τ := τ) (main (F := F))) ⟨m, fun _ => 0, ρ⟩ (fun r => ∀ c : Dev nD,
      r.2.mem ((c.tc : Thread nD τ).loc main_v20) = resarr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_)
    (value_cond m ρ emb₁ () Variants.none Lz lvz (fun _ _ => rfl) (outsE m) (kdats m) 0 (fun _ => iprop(emp))
      (initOf (Pipeline.cells cfgs cellOf_inj) (Pipeline.launchToks cfgs cellOf_inj)) launch_elt
      (fun _ c => Rst c) (launch_rest ρ) (fun c => by iintro ⟨-, HO⟩; iexact HO)
      (kreg0 m) (fun _ => .rfl) (fun _ => .rfl)
      (kreg1 m) (fun c => by rw [V2E_eq m c]; exact .rfl) (fun _ => .rfl)
      (kreg2 m) (fun c => by rw [V3E_eq m c]; exact .rfl) (fun _ => .rfl)
      (kreg3 m) (fun c => by rw [V9E_eq m c]; exact .rfl) (fun _ => .rfl))
  rw [← outsE_v20 m 10 c]
  exact h c

end Cert.KernelIdeal.Hand

end
-- ==== Proof.Word.lean ====
/-
  The word-level program and its idealization are one text: the idealization rewrote no operation.
  So the two programs have the same kernel bodies and the same @main, and the run proved once for
  every float model is also the word-level program's.
-/
import proofs.«418033_j40699110097036_3_alg».proof.Defs
import proofs.«418033_j40699110097036_3_alg».proof.Proof.Gen.Kernel
import proofs.«418033_j40699110097036_3_alg».proof.Proof.Gen.KernelIdeal
import proofs.«418033_j40699110097036_3_alg».proof.Proof.Gen.Pre_finite_inputs
import proofs.«418033_j40699110097036_3_alg».proof.Proof.KI.Run

set_option maxRecDepth 16384

namespace Cert.Proof

open Idealize.ShloMosaic Idealize.SL.Sem

variable {F : FTy → Type} [FloatOps F]

set_option maxHeartbeats 1000000 in
/-- Label by label, the two tables of kernel bodies hold the same body. -/
theorem defs₀_eq : Cert.Kernel.defs₀ (F := F) = Cert.KernelIdeal.defs₀ (F := F) := by
  unfold Cert.Kernel.defs₀ Cert.KernelIdeal.defs₀
  congr 1; funext l a
  match l, a with
  | 0, (t, s) => rfl
  | 1, (t, s) => rfl
  | 2, (t, s) => rfl
  | 3, (t, s) => rfl
  | ⟨_ + 4, h⟩, _ => exact absurd h (by omega)

set_option maxHeartbeats 1000000 in
theorem defs_eq : Cert.Kernel.defs (F := F) = Cert.KernelIdeal.defs (F := F) := by
  unfold Cert.Kernel.defs Cert.KernelIdeal.defs; rw [defs₀_eq]; rfl

set_option maxHeartbeats 1000000 in
/-- The word-level program runs to the end and leaves its arguments unchanged. -/
theorem frame_k : Cert.frame_Kernel (hKernel := Cert.Kernel.Gen.facts) (hPre_finite_inputs := Cert.Pre_finite_inputs.Gen.facts) :=
  fun m ρ _ => by
    rw [defs_eq]
    exact (θ_run _ _ _).mono (fun _ h c => (h c).2) (Cert.KernelIdeal.Hand.run_main (F := Bits) m ρ)

end Cert.Proof
-- ==== Proof.Spec.lean ====
/- The mathematics both programs compute, over the extended reals: the encoder, the folded decode, the two-layer decode. -/
import Idealize.ShloMosaic.PureOps.Ideal
import Idealize.ShloMosaic.Lib.ValueIdx

noncomputable section

namespace Cert.Spec

open Idealize.ShloMosaic Idealize.ShloMosaic.ValueIdx

abbrev Arr (a b : ℕ) := (⟨2, ![a, b]⟩ : Shape).Idx → EReal
abbrev IArr (a b : ℕ) := (⟨2, ![a, b]⟩ : Shape).Idx → BitVec 32

abbrev Mat (a b : ℕ) := Fin a → Fin b → EReal

def ofArr {a b : ℕ} (A : Arr a b) : Mat a b := fun p q => A (ix2 p q)

def mm {a b d : ℕ} (A : Mat a b) (B : Mat b d) : Mat a d := fun p q => ∑ k : Fin b, A p k * B k q

def relu {a b : ℕ} (A : Mat a b) : Mat a b := fun p q => max (A p q) 0

def enc (x : Mat 16384 512) (adj : Mat 16384 16384) (W1 : Mat 512 256) (W2 : Mat 256 128) : Mat 16384 128 :=
  mm adj (mm (relu (mm adj (mm x W1))) W2)

def lo (k : Fin 128) : Fin 256 := ⟨k.val, by omega⟩
def hi (k : Fin 128) : Fin 256 := ⟨128 + k.val, by omega⟩

def cat {α : Type} (f g : Fin 128 → α) (j : Fin 256) : α :=
  if h : j.val < 128 then f ⟨j.val, h⟩ else g ⟨j.val - 128, by omega⟩

def dec3 {n : ℕ} (zi zj : Mat n 128) (u v w : Mat 1 128) (e : Fin n) : EReal :=
  Ideal.logistic ((∑ k : Fin 128, max (zi e k) 0 * u 0 k + ∑ k : Fin 128, max (zj e k) 0 * v 0 k)
    + ∑ k : Fin 128, (zi e k * zj e k) * w 0 k)

def uRow (Wtwo : Mat 256 128) (Wthree : Mat 256 1) : Mat 1 128 := fun _ k => ∑ j : Fin 128, Wtwo (lo k) j * Wthree (lo j) 0
def vRow (Wtwo : Mat 256 128) (Wthree : Mat 256 1) : Mat 1 128 := fun _ k => ∑ j : Fin 128, Wtwo (hi k) j * Wthree (lo j) 0
def wRow (Wthree : Mat 256 1) : Mat 1 128 := fun _ k => Wthree (hi k) 0

def decK (Wtwo : Mat 256 128) (Wthree : Mat 256 1) (za zb : Fin 128 → EReal) : EReal :=
  Ideal.logistic ((∑ k : Fin 128, max (za k) 0 * uRow Wtwo Wthree 0 k + ∑ k : Fin 128, max (zb k) 0 * vRow Wtwo Wthree 0 k)
    + ∑ k : Fin 128, (za k * zb k) * wRow Wthree 0 k)

def decR (Wtwo : Mat 256 128) (Wthree : Mat 256 1) (za zb : Fin 128 → EReal) : EReal :=
  Ideal.logistic (∑ j : Fin 256,
    cat (fun j' : Fin 128 => ∑ k : Fin 256, max (cat za zb k) 0 * Wtwo k j') (fun k => za k * zb k) j * Wthree j 0)

def nrm (w : BitVec 32) : BitVec 32 := Scalar.select (IntOp.cmpi .slt w 0#32) (IntOp.addi w 16384#32) w

def row (w : BitVec 32) : Fin 16384 := ⟨min (nrm w).toInt.toNat 16383, by omega⟩

def edge (E1 E2 : IArr 500000 2) (e : Fin 1000000) (s : Fin 2) : BitVec 32 :=
  if h : e.val < 500000 then E1 (ix2 ⟨e.val, h⟩ s) else E2 (ix2 ⟨e.val - 500000, by omega⟩ s)

def InRange (E : IArr 500000 2) : Prop := ∀ (e : Fin 500000) (s : Fin 2), 0 ≤ (E (ix2 e s)).toInt ∧ (E (ix2 e s)).toInt < 16384

def IsReal (x : EReal) : Prop := ∃ r : ℝ, x = (r : EReal)

def resultK (x : Mat 16384 512) (adj : Mat 16384 16384) (W1 : Mat 512 256) (W2 : Mat 256 128) (Wtwo : Mat 256 128)
    (Wthree : Mat 256 1) (E1 E2 : IArr 500000 2) (e : Fin 1000000) : EReal :=
  decK Wtwo Wthree (enc x adj W1 W2 (row (edge E1 E2 e 0))) (enc x adj W1 W2 (row (edge E1 E2 e 1)))

def resultR (x : Mat 16384 512) (adj : Mat 16384 16384) (W1 : Mat 512 256) (W2 : Mat 256 128) (Wtwo : Mat 256 128)
    (Wthree : Mat 256 1) (E1 E2 : IArr 500000 2) (e : Fin 1000000) : EReal :=
  decR Wtwo Wthree (enc x adj W1 W2 (row (edge E1 E2 e 0))) (enc x adj W1 W2 (row (edge E1 E2 e 1)))

end Cert.Spec

end
-- ==== Proof.LibMatmul.lean ====
/- A matrix product with the plain dimension numbers (rows × contraction times contraction × columns), read at an entry over the extended reals: Σ_k x[p, k] · y[k, q]. -/
import Idealize.ShloMosaic.PureOps.Ideal.Laws
import Idealize.ShloMosaic.Lib.ValueIdx

namespace Cert.Lib.Matmul

open Idealize.ShloMosaic Idealize.ShloMosaic.ValueIdx

variable (M K N : ℕ) {φ₁ φ₂ : FTy}

/-- The contraction index has one axis; along it the operand indices at (p, q) are (p, k) and (k, q). -/
theorem sum_plain (x : FVec Ideal ⟨2, ![M, K]⟩ φ₁) (y : FVec Ideal ⟨2, ![K, N]⟩ φ₂) (p : Fin M) (q : Fin N) :
    ∑ k : (DotDims.plain M K N).contr.Idx, x ((DotDims.plain M K N).lhsIdx (ix2 p q) k) * y ((DotDims.plain M K N).rhsIdx (ix2 p q) k)
      = ∑ k : Fin K, x (ix2 p k) * y (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun d => Fin.ext (by
      match d with
      | ⟨0, _⟩ => rfl
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun d => Fin.ext (by
      match d with
      | ⟨0, _⟩ => exact ((DotDims.plain M K N).rhsIdx_val_of_single rfl _ _).trans hk
      | ⟨1, _⟩ => rfl)
  rw [el, er]

theorem dotGeneral_plain (x : FVec Ideal ⟨2, ![M, K]⟩ φ₁) (y : FVec Ideal ⟨2, ![K, N]⟩ φ₂) (p : Fin M) (q : Fin N) :
    Host.dotGeneral (DotDims.plain M K N) none x y (ix2 p q) = ∑ k : Fin K, x (ix2 p k) * y (ix2 k q) := by
  simp only [Host.dotGeneral]
  rw [Ideal.dotGeneral_apply]; exact sum_plain M K N x y p q

theorem matmul_plain (x : FVec Ideal ⟨2, ![M, K]⟩ φ₁) (y : FVec Ideal ⟨2, ![K, N]⟩ φ₂) (p : Fin M) (q : Fin N) :
    matmul (DotDims.plain M K N) none x y (constant (F := Ideal) ⟨2, ![M, N]⟩ .f32 0x00000000#32) (ix2 p q)
      = ∑ k : Fin K, x (ix2 p k) * y (ix2 k q) := by
  simp only [matmul]
  rw [Ideal.matmul_constant_zero_apply]; exact sum_plain M K N x y p q

end Cert.Lib.Matmul
-- ==== Proof.KI.Val0.lean ====
/- Call 0's output array is x · W1. -/
import proofs.«418033_j40699110097036_3_alg».proof.Proof.KI.Data
import proofs.«418033_j40699110097036_3_alg».proof.Proof.Spec
import proofs.«418033_j40699110097036_3_alg».proof.Proof.LibMatmul
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Spec

variable (V : (c : Dev nD) → (b : Ref sig .tc) → Buf (Elt Ideal) ((c : Thread nD τ).loc b))

theorem pay0_apply (x : Vec Ideal S2048x512 .f32) (w : Vec Ideal S512x256 .f32) (p : Fin 2048) (q : Fin 256) :
    k0_pay1 (F := Ideal) x w (ix2 p q) = ∑ k : Fin 512, x (ix2 p k) * w (ix2 k q) := by
  unfold k0_pay1
  exact Cert.Lib.Matmul.matmul_plain 2048 512 256 _ _ p q

abbrev xarr0 (c : Dev nD) : Vec Ideal S16384x512 .f32 := V c main_arg0
abbrev warr0 (c : Dev nD) : Vec Ideal S512x256 .f32 := V c main_arg2
abbrev xblk0 (c : Dev nD) (t : Fin cfg0.N) : Vec Ideal S2048x512 .f32 := iblk0 V c 0 t
abbrev wblk0 (c : Dev nD) (t : Fin cfg0.N) : Vec Ideal S512x256 .f32 := iblk0 V c 1 t

abbrev prod0 (c : Dev nD) : Vec Ideal S16384x256 .bf16 :=
  fun i => ∑ k : Fin 512, xarr0 V c (ix2 (i 0) k) * warr0 V c (ix2 k (i 1))

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem xblk0_apply (c : Dev nD) (t : Fin cfg0.N) (r : Fin 2048) (k : Fin 512) (R : Fin 16384)
    (hR : R.val = 2048 * t.val + r.val) : xblk0 V c t (ix2 r k) = xarr0 V c (ix2 R k) := by
  obtain ⟨e0, e1, -⟩ := idx_facts0 t
  show V c main_arg0 (((cfg0.win 0).blk t).view.emb (ix2 r k)) = V c main_arg0 (ix2 R k)
  refine congrArg (V c main_arg0) (funext fun a => Fin.ext ?_)
  match a with
  | ⟨0, _⟩ => show win0_0.index t (0 : Fin 2) * 2048 + 1 * r.val = R.val; omega
  | ⟨1, _⟩ => show win0_0.index t (1 : Fin 2) * 512 + 1 * k.val = k.val; omega

theorem wblk0_apply (c : Dev nD) (t : Fin cfg0.N) (k : Fin 512) (q : Fin 256) :
    wblk0 V c t (ix2 k q) = warr0 V c (ix2 k q) := by
  obtain ⟨-, -, e2, e3, -⟩ := idx_facts0 t
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 512 + 1 * k.val = k.val; omega
  | ⟨1, _⟩ => show win0_1.index t (1 : Fin 2) * 256 + 1 * q.val = q.val; omega

theorem flushed0_eq (c : Dev nD) (t : Fin cfg0.N) :
    (dat0 (F := Ideal) V c).flushed 2 t = ((cfg0.win 2).blk t).view.read (Elt Ideal) (prod0 V c) := by
  obtain ⟨-, -, -, -, e4, e5⟩ := idx_facts0 t
  have ht : t.val < 8 := by have := t.isLt; have hN : cfg0.N = 8 := N_0; omega
  funext y
  obtain ⟨p, q, rfl⟩ : ∃ (p : Fin 2048) (q : Fin 256), y = ix2 p q := ⟨y 0, y 1, eq_ix2 y⟩
  have hemb : ((cfg0.win 2).blk t).view.emb (ix2 p q) = ix2 (⟨2048 * t.val + p.val, by omega⟩ : Fin 16384) q := by
    funext a; apply Fin.ext
    match a with
    | ⟨0, _⟩ => show win0_2.index t (0 : Fin 2) * 2048 + 1 * p.val = 2048 * t.val + p.val; omega
    | ⟨1, _⟩ => show win0_2.index t (1 : Fin 2) * 256 + 1 * q.val = q.val; omega
  show k0_pay1 (F := Ideal) (xblk0 V c t) (wblk0 V c t) (ix2 p q) = prod0 V c (((cfg0.win 2).blk t).view.emb (ix2 p q))
  rw [hemb]
  refine (pay0_apply (xblk0 V c t) (wblk0 V c t) p q).trans ?_
  refine Finset.sum_congr rfl fun k _ => ?_
  rw [xblk0_apply V c t p k ⟨2048 * t.val + p.val, by omega⟩ rfl, wblk0_apply V c t k q]

theorem mem_blk0 (t : Fin cfg0.N) (i : S16384x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v0).slice (win0_2.rect t)).set ↔ _
  rw [View.set_slice_whole, Rect.mem_set_unit]
  exact Iff.rfl

theorem cover0 (i : S16384x256.Idx) :
    ∃ t : Fin cfg0.N, (cfg0.win 2).flush t = true ∧ i ∈ ((cfg0.win 2).blk t).view.set := by
  have hi0 : (i 0).val < 16384 := (i 0).isLt
  have hi1 : (i 1).val < 256 := (i 1).isLt
  have hN : cfg0.N = 8 := N_0
  obtain ⟨t, ht⟩ : ∃ t : Fin cfg0.N, t.val = (i 0).val / 2048 := ⟨⟨(i 0).val / 2048, by omega⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 256 ≤ (i 1).val ∧ (i 1).val < win0_2.index t (1 : Fin 2) * 256 + 256; omega

theorem arr0_eq (c : Dev nD) : (dat0 (F := Ideal) V c).arrAt 2 cfg0.N = prod0 V c :=
  (dat0 (F := Ideal) V c).arrAt_eq_of_cover 2 (prod0 V c) (fun t _ => flushed0_eq V c t) cover0

theorem final0 (c : Dev nD) (p : Fin 16384) (q : Fin 256) :
    (dat0 (F := Ideal) V c).arrAt 2 cfg0.N (ix2 p q) = mm (ofArr (V c main_arg0)) (ofArr (V c main_arg2)) p q := by
  rw [arr0_eq V c]
  rfl

end Cert.KernelIdeal.Hand

end
-- ==== Proof.KI.Val1.lean ====
/- Call 1's output array is max(adj · t1, 0) · W2: eight blocks of 2048 terms added in order are the 16384-term sum. -/
import proofs.«418033_j40699110097036_3_alg».proof.Proof.KI.Data
import proofs.«418033_j40699110097036_3_alg».proof.Proof.Spec
import proofs.«418033_j40699110097036_3_alg».proof.Proof.LibMatmul
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Spec

variable (V : (c : Dev nD) → (b : Ref sig .tc) → Buf (Elt Ideal) ((c : Thread nD τ).loc b))

abbrev dot1A : DotDims S1024x2048 S2048x256 S1024x256 := dot_S1024x2048_S2048x256_S1024x256_1_0_0_1_n_n

abbrev dot1B : DotDims S1024x256 S256x128 S1024x128 := dot_S1024x256_S256x128_S1024x128_1_0_0_1_n_n

theorem mm1A_apply (x : FVec Ideal S1024x2048 .bf16) (y : FVec Ideal S2048x256 .bf16) (a : Fin 1024) (j : Fin 256) :
    matmul dot_S1024x2048_S2048x256_S1024x256_1_0_0_1_n_n none x y (constant (F := Ideal) S1024x256 .f32 0x00000000#32) (ix2 a j)
      = ∑ k : Fin 2048, x (ix2 a k) * y (ix2 k j) :=
  Cert.Lib.Matmul.matmul_plain 1024 2048 256 x y a j

theorem mm1B_apply (x : FVec Ideal S1024x256 .bf16) (y : FVec Ideal S256x128 .bf16) (a : Fin 1024) (q : Fin 128) :
    matmul dot_S1024x256_S256x128_S1024x128_1_0_0_1_n_n none x y (constant (F := Ideal) S1024x128 .f32 0x00000000#32) (ix2 a q)
      = ∑ j : Fin 256, x (ix2 a j) * y (ix2 j q) :=
  Cert.Lib.Matmul.matmul_plain 1024 256 128 x y a q

theorem k1_pay1_apply (a : Fin 1024) (j : Fin 256) : k1_pay1 (F := Ideal) (ix2 a j) = 0 := by
  unfold k1_pay1
  rw [shapeCast_self, broadcast_apply]
  exact Ideal.ofBits_zero_f32

theorem k1_pay2_apply (x : Vec Ideal S1024x2048 .f32) (y : Vec Ideal S2048x256 .bf16) (z : Vec Ideal S1024x256 .f32)
    (a : Fin 1024) (j : Fin 256) :
    k1_pay2 x y z (ix2 a j) = z (ix2 a j) + ∑ k : Fin 2048, x (ix2 a k) * y (ix2 k j) := by
  unfold k1_pay2
  rw [shapeCast_self, addf_apply]
  refine congrArg (z (ix2 a j) + ·) ?_
  refine (mm1A_apply _ _ a j).trans ?_
  refine Finset.sum_congr rfl fun k _ => ?_
  rw [truncf_apply, shapeCast_self]

theorem k1_pay3_apply (z : Vec Ideal S1024x256 .f32) (w : Vec Ideal S256x128 .bf16) (a : Fin 1024) (q : Fin 128) :
    k1_pay3 z w (ix2 a q) = ∑ j : Fin 256, max (z (ix2 a j)) 0 * w (ix2 j q) := by
  unfold k1_pay3
  rw [truncf_apply]
  refine (mm1B_apply _ _ a q).trans ?_
  refine Finset.sum_congr rfl fun j _ => ?_
  rw [truncf_apply, maximumf_apply, broadcast_apply, shapeCast_self]
  exact congrArg (fun u => max (z (ix2 a j)) u * w (ix2 j q)) Ideal.ofBits_zero_f32

abbrev slabRect1 (i : grid1.Coords) : Rect S16384x256 := Rect.unit (s := S16384x256) (k1_off1 i) S2048x256.size (k1_off1_inb i)

theorem idx_facts1 : ∀ t : Fin cfg1.N,
    win1_0.index t (0 : Fin 2) = t.val / 8 ∧ win1_0.index t (1 : Fin 2) = t.val % 8
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0 :=
  (by decide +kernel : ∀ t : Fin grid1.N, _)

theorem off_facts1 : ∀ t : Fin cfg1.N,
    k1_off1 (grid1.coords t) (0 : Fin 2) = 2048 * (t.val % 8) ∧ k1_off1 (grid1.coords t) (1 : Fin 2) = 0 :=
  (by decide +kernel : ∀ t : Fin grid1.N, _)

def rowOf1 (t : Fin cfg1.N) (a : Fin 1024) : Fin 16384 :=
  ⟨1024 * (t.val / 8) + a.val, by have := lt_of_lt_of_eq t.isLt (show cfg1.N = 128 from N_1); omega⟩

def col1 (b : ℕ) (kk : Fin 2048) : Fin 16384 := ⟨(2048 * b + kk.val) % 16384, Nat.mod_lt _ (by decide)⟩

theorem adj_blk1 (c : Dev nD) (t : Fin cfg1.N) (a : Fin 1024) (k : Fin 2048) :
    iblk1 V c 0 t (ix2 a k) = V c main_arg1 (ix2 (rowOf1 t a) (col1 (t.val % 8) k)) := by
  obtain ⟨e0, e1, -⟩ := idx_facts1 t
  have hN : t.val < 128 := lt_of_lt_of_eq t.isLt (show cfg1.N = 128 from N_1)
  show V c main_arg1 (((cfg1.win 0).blk t).view.emb (ix2 a k)) = V c main_arg1 (ix2 (rowOf1 t a) (col1 (t.val % 8) k))
  refine congrArg (V c main_arg1) (funext fun d => Fin.ext ?_)
  match d with
  | ⟨0, _⟩ => show win1_0.index t (0 : Fin 2) * 1024 + 1 * a.val = 1024 * (t.val / 8) + a.val; omega
  | ⟨1, _⟩ => show win1_0.index t (1 : Fin 2) * 2048 + 1 * k.val = (2048 * (t.val % 8) + k.val) % 16384; have := k.isLt; omega

theorem slab_blk1 (c : Dev nD) (t : Fin cfg1.N) (k : Fin 2048) (j : Fin 256) :
    slab1 V c t (ix2 k j) = V c main_v0 (ix2 (col1 (t.val % 8) k) j) := by
  obtain ⟨-, -, e2, e3, -⟩ := idx_facts1 t
  obtain ⟨o0, o1⟩ := off_facts1 t
  have hN : t.val < 128 := lt_of_lt_of_eq t.isLt (show cfg1.N = 128 from N_1)
  show V c main_v0 (((cfg1.win 1).blk t).view.emb ((slabRect1 (grid1.coords t)).idx (ix2 k j))) = V c main_v0 (ix2 (col1 (t.val % 8) k) j)
  refine congrArg (V c main_v0) (funext fun d => Fin.ext ?_)
  match d with
  | ⟨0, _⟩ => show win1_1.index t (0 : Fin 2) * 16384 + 1 * (k1_off1 (grid1.coords t) (0 : Fin 2) + 1 * k.val) = (2048 * (t.val % 8) + k.val) % 16384; have := k.isLt; omega
  | ⟨1, _⟩ => show win1_1.index t (1 : Fin 2) * 256 + 1 * (k1_off1 (grid1.coords t) (1 : Fin 2) + 1 * j.val) = j.val; omega

theorem w2_blk1 (c : Dev nD) (t : Fin cfg1.N) (j : Fin 256) (q : Fin 128) :
    iblk1 V c 2 t (ix2 j q) = V c main_v1 (ix2 j q) := by
  obtain ⟨-, -, -, -, e4, e5, -⟩ := idx_facts1 t
  show V c main_v1 (((cfg1.win 2).blk t).view.emb (ix2 j q)) = V c main_v1 (ix2 j q)
  refine congrArg (V c main_v1) (funext fun d => Fin.ext ?_)
  match d with
  | ⟨0, _⟩ => show win1_2.index t (0 : Fin 2) * 256 + 1 * j.val = j.val; omega
  | ⟨1, _⟩ => show win1_2.index t (1 : Fin 2) * 128 + 1 * q.val = q.val; omega

def seg1 (c : Dev nD) (p : Fin 16384) (j : Fin 256) (b : ℕ) : EReal :=
  ∑ kk : Fin 2048, ofArr (V c main_arg1) p (col1 b kk) * ofArr (V c main_v0) (col1 b kk) j

theorem sum_blocks1 (f : Fin 16384 → EReal) :
    ∑ k, f k = ∑ b ∈ Finset.range 8, ∑ kk : Fin 2048, f (col1 b kk) :=
  calc ∑ k, f k
      = ∑ x : Fin 8 × Fin 2048, f (col1 x.1.val x.2) := by
        refine (Equiv.sum_comp (finProdFinEquiv.trans (finCongr (by norm_num : 8 * 2048 = 16384))) f).symm.trans ?_
        refine Finset.sum_congr rfl fun x _ => congrArg f (Fin.ext ?_)
        show x.2.val + 2048 * x.1.val = (2048 * x.1.val + x.2.val) % 16384
        have h1 := x.1.isLt; have h2 := x.2.isLt; omega
    _ = ∑ b : Fin 8, ∑ kk : Fin 2048, f (col1 b.val kk) := Fintype.sum_prod_type _
    _ = ∑ b ∈ Finset.range 8, ∑ kk : Fin 2048, f (col1 b kk) :=
        Fin.sum_univ_eq_sum_range (fun b => ∑ kk : Fin 2048, f (col1 b kk)) 8

theorem step1 (c : Dev nD) (t : Fin cfg1.N) (z : Vec Ideal S1024x256 .f32) (a : Fin 1024) (j : Fin 256) :
    k1_pay2 (iblk1 V c 0 t) (slab1 V c t) z (ix2 a j) = z (ix2 a j) + seg1 V c (rowOf1 t a) j (t.val % 8) := by
  refine (k1_pay2_apply (iblk1 V c 0 t) (slab1 V c t) z a j).trans ?_
  refine congrArg (z (ix2 a j) + ·) ?_
  unfold seg1
  refine Finset.sum_congr rfl fun k _ => ?_
  rw [adj_blk1, slab_blk1]; rfl

theorem acc1_sum (c : Dev nD) : ∀ (n : ℕ) (hn : n < cfg1.N) (a : Fin 1024) (j : Fin 256),
    acc1 V c n hn (ix2 a j) = ∑ b ∈ Finset.range (n % 8 + 1), seg1 V c (rowOf1 ⟨n, hn⟩ a) j b := by
  intro n
  induction n with
  | zero =>
    intro hn a j
    refine (step1 V c ⟨0, hn⟩ (k1_pay1 (F := Ideal)) a j).trans ?_
    rw [k1_pay1_apply, zero_add]
    show seg1 V c (rowOf1 ⟨0, hn⟩ a) j (0 % 8) = _
    rw [Nat.zero_mod, Finset.sum_range_one]
  | succ n ih =>
    intro hn a j
    by_cases h0 : (n + 1) % 8 = 0
    · have e : acc1 V c (n + 1) hn = k1_pay2 (iblk1 V c 0 ⟨n + 1, hn⟩) (slab1 V c ⟨n + 1, hn⟩) (k1_pay1 (F := Ideal)) :=
        congrArg (k1_pay2 (iblk1 V c 0 ⟨n + 1, hn⟩) (slab1 V c ⟨n + 1, hn⟩)) (if_pos h0)
      rw [e]
      refine (step1 V c ⟨n + 1, hn⟩ (k1_pay1 (F := Ideal)) a j).trans ?_
      rw [k1_pay1_apply, zero_add]
      show seg1 V c (rowOf1 ⟨n + 1, hn⟩ a) j ((n + 1) % 8) = _
      rw [h0, Finset.sum_range_one]
    · have e : acc1 V c (n + 1) hn = k1_pay2 (iblk1 V c 0 ⟨n + 1, hn⟩) (slab1 V c ⟨n + 1, hn⟩) (acc1 V c n (Nat.lt_of_succ_lt hn)) :=
        congrArg (k1_pay2 (iblk1 V c 0 ⟨n + 1, hn⟩) (slab1 V c ⟨n + 1, hn⟩)) (if_neg h0)
      rw [e]
      refine (step1 V c ⟨n + 1, hn⟩ (acc1 V c n (Nat.lt_of_succ_lt hn)) a j).trans ?_
      rw [ih (Nat.lt_of_succ_lt hn) a j]
      have hr : rowOf1 ⟨n, Nat.lt_of_succ_lt hn⟩ a = rowOf1 ⟨n + 1, hn⟩ a :=
        Fin.ext (by show 1024 * (n / 8) + a.val = 1024 * ((n + 1) / 8) + a.val; omega)
      have hm : (n + 1) % 8 = n % 8 + 1 := by omega
      rw [hr]
      show _ + seg1 V c (rowOf1 ⟨n + 1, hn⟩ a) j ((n + 1) % 8) = _
      rw [hm]
      exact (Finset.sum_range_succ (fun b => seg1 V c (rowOf1 ⟨n + 1, hn⟩ a) j b) (n % 8 + 1)).symm

theorem acc1_full (c : Dev nD) (t : Fin cfg1.N) (h7 : t.val % 8 = 7) (a : Fin 1024) (j : Fin 256) :
    acc1 V c t.val t.isLt (ix2 a j) = mm (ofArr (V c main_arg1)) (ofArr (V c main_v0)) (rowOf1 t a) j := by
  rw [acc1_sum V c t.val t.isLt a j, h7]
  exact (sum_blocks1 (fun k => ofArr (V c main_arg1) (rowOf1 t a) k * ofArr (V c main_v0) k j)).symm

theorem out1_at (c : Dev nD) (t : Fin cfg1.N) (h7 : t.val % 8 = 7) (a : Fin 1024) (q : Fin 128) :
    k1_pay3 (acc1 V c t.val t.isLt) (iblk1 V c 2 t) (ix2 a q)
      = mm (relu (mm (ofArr (V c main_arg1)) (ofArr (V c main_v0)))) (ofArr (V c main_v1)) (rowOf1 t a) q := by
  refine (k1_pay3_apply (acc1 V c t.val t.isLt) (iblk1 V c 2 t) a q).trans ?_
  show _ = ∑ j : Fin 256, relu (mm (ofArr (V c main_arg1)) (ofArr (V c main_v0))) (rowOf1 t a) j * ofArr (V c main_v1) j q
  refine Finset.sum_congr rfl fun j _ => ?_
  rw [w2_blk1, acc1_full V c t h7 a j]; rfl

def G1 (c : Dev nD) : Arr 16384 128 := fun i =>
  mm (relu (mm (ofArr (V c main_arg1)) (ofArr (V c main_v0)))) (ofArr (V c main_v1)) ⟨(i 0).val, idx2_lt0 i⟩ ⟨(i 1).val, idx2_lt1 i⟩

theorem flushed1_eq (c : Dev nD) (t : Fin cfg1.N) (hf : (cfg1.win 3).flush t = true) :
    (dat1 (F := Ideal) V c).flushed 3 t = ((cfg1.win 3).blk t).view.read (Elt Ideal) (G1 V c) := by
  have h7 : t.val % 8 = 7 := (flush1_3 t).mp hf
  obtain ⟨-, -, -, -, -, -, e6, e7⟩ := idx_facts1 t
  show (cfg1.win 3).cut (grid1.coords t) ((dat1 V c).after 3 t) = _
  rw [show (dat1 V c).after 3 t = k1_pay3 (acc1 V c t.val t.isLt) (iblk1 V c 2 t) from by dsimp only [dat1]]
  funext y
  obtain ⟨a, q, rfl⟩ : ∃ (a : Fin 1024) (q : Fin 128), y = ix2 a q := ⟨y 0, y 1, eq_ix2 y⟩
  show k1_pay3 (acc1 V c t.val t.isLt) (iblk1 V c 2 t) (ix2 a q) = G1 V c (((cfg1.win 3).blk t).view.emb (ix2 a q))
  refine (out1_at V c t h7 a q).trans ?_
  have hp : rowOf1 t a = ⟨((((cfg1.win 3).blk t).view.emb (ix2 a q)) 0).val, idx2_lt0 _⟩ :=
    Fin.ext (by show 1024 * (t.val / 8) + a.val = win1_3.index t (0 : Fin 2) * 1024 + 1 * a.val; omega)
  have hq : q = ⟨((((cfg1.win 3).blk t).view.emb (ix2 a q)) 1).val, idx2_lt1 _⟩ :=
    Fin.ext (by show q.val = win1_3.index t (1 : Fin 2) * 128 + 1 * q.val; omega)
  exact congrArg₂ (mm (relu (mm (ofArr (V c main_arg1)) (ofArr (V c main_v0)))) (ofArr (V c main_v1))) hp hq

theorem mem_blk1 (t : Fin cfg1.N) (i : S16384x128.Idx) :
    i ∈ ((cfg1.win 3).blk t).view.set ↔ ∀ a : Fin 2, win1_3.index t a * S1024x128.size a ≤ (i a).val ∧ (i a).val < win1_3.index t a * S1024x128.size a + S1024x128.size a := by
  show i ∈ ((View.whole main_v2).slice (win1_3.rect t)).set ↔ _
  rw [View.set_slice_whole, Rect.mem_set_unit]
  exact Iff.rfl

theorem cover1 (i : S16384x128.Idx) :
    ∃ t : Fin cfg1.N, (cfg1.win 3).flush t = true ∧ i ∈ ((cfg1.win 3).blk t).view.set := by
  have hi0 : (i 0).val < 16384 := (i 0).isLt
  have hi1 : (i 1).val < 128 := (i 1).isLt
  have hlt : 8 * ((i 0).val / 1024) + 7 < cfg1.N := by rw [show cfg1.N = 128 from N_1]; omega
  obtain ⟨-, -, -, -, -, -, e6, e7⟩ := idx_facts1 ⟨8 * ((i 0).val / 1024) + 7, hlt⟩
  have e6' : win1_3.index ⟨8 * ((i 0).val / 1024) + 7, hlt⟩ (0 : Fin 2) = (8 * ((i 0).val / 1024) + 7) / 8 := e6
  refine ⟨⟨8 * ((i 0).val / 1024) + 7, hlt⟩, (flush1_3 _).mpr (by show (8 * ((i 0).val / 1024) + 7) % 8 = 7; omega), ?_⟩
  rw [mem_blk1]
  intro a
  match a with
  | ⟨0, _⟩ =>
    show win1_3.index ⟨8 * ((i 0).val / 1024) + 7, hlt⟩ (0 : Fin 2) * 1024 ≤ (i 0).val ∧ (i 0).val < win1_3.index ⟨8 * ((i 0).val / 1024) + 7, hlt⟩ (0 : Fin 2) * 1024 + 1024
    omega
  | ⟨1, _⟩ =>
    show win1_3.index ⟨8 * ((i 0).val / 1024) + 7, hlt⟩ (1 : Fin 2) * 128 ≤ (i 1).val ∧ (i 1).val < win1_3.index ⟨8 * ((i 0).val / 1024) + 7, hlt⟩ (1 : Fin 2) * 128 + 128
    omega

theorem final1 (c : Dev nD) (p : Fin 16384) (q : Fin 128) :
    (dat1 (F := Ideal) V c).arrAt 3 cfg1.N (ix2 p q)
      = mm (relu (mm (ofArr (V c main_arg1)) (ofArr (V c main_v0)))) (ofArr (V c main_v1)) p q := by
  rw [(dat1 (F := Ideal) V c).arrAt_eq_of_cover 3 (G1 V c) (fun t hf => flushed1_eq V c t hf) cover1]
  rfl

end Cert.KernelIdeal.Hand

end
-- ==== Proof.KI.Val2.lean ====
/- Call 2's output array is adj · t2. -/
import proofs.«418033_j40699110097036_3_alg».proof.Proof.KI.Data
import proofs.«418033_j40699110097036_3_alg».proof.Proof.Spec
import proofs.«418033_j40699110097036_3_alg».proof.Proof.LibMatmul
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Spec

variable (V : (c : Dev nD) → (b : Ref sig .tc) → Buf (Elt Ideal) ((c : Thread nD τ).loc b))

theorem mm2_apply (x : FVec Ideal S1024x2048 .bf16) (s : FVec Ideal S2048x128 .bf16) (a : Fin 1024) (q : Fin 128) :
    matmul dot_S1024x2048_S2048x128_S1024x128_1_0_0_1_n_n none x s (constant (F := Ideal) S1024x128 .f32 0x00000000#32) (ix2 a q)
      = ∑ k : Fin 2048, x (ix2 a k) * s (ix2 k q) :=
  Cert.Lib.Matmul.matmul_plain 1024 2048 128 x s a q

theorem pay2_1_apply (j : S1024x128.Idx) : k2_pay1 (F := Ideal) j = 0 := by
  unfold k2_pay1
  rw [shapeCast_self]
  exact Ideal.ofBits_zero_f32

theorem pay2_2_apply (x : Vec Ideal S1024x2048 .f32) (s : Vec Ideal S2048x128 .bf16) (z : Vec Ideal S1024x128 .f32)
    (a : Fin 1024) (q : Fin 128) :
    k2_pay2 x s z (ix2 a q) = z (ix2 a q) + ∑ k : Fin 2048, x (ix2 a k) * s (ix2 k q) := by
  unfold k2_pay2
  rw [shapeCast_self, shapeCast_self, addf_apply]
  exact congrArg (z (ix2 a q) + ·) (mm2_apply _ _ a q)

abbrev adj2 (c : Dev nD) : Arr 16384 16384 := V c main_arg1
abbrev rhs2 (c : Dev nD) : Arr 16384 128 := V c main_v2

theorem where2 : ∀ t : Fin cfg2.N,
    win2_0.index t (0 : Fin 2) = t.val / 8 ∧ win2_0.index t (1 : Fin 2) = t.val % 8
    ∧ win2_1.index t (0 : Fin 2) = 0 ∧ win2_1.index t (1 : Fin 2) = 0
    ∧ win2_2.index t (0 : Fin 2) = t.val / 8 ∧ win2_2.index t (1 : Fin 2) = 0
    ∧ k2_off1 (grid2.coords t) (0 : Fin 2) = 2048 * (t.val % 8) ∧ k2_off1 (grid2.coords t) (1 : Fin 2) = 0 :=
  (by decide +kernel : ∀ t : Fin grid2.N, _)

theorem blk2_apply (c : Dev nD) (t : Fin cfg2.N) (a : Fin 1024) (k : Fin 2048) (p kk : Fin 16384)
    (hp : p.val = 1024 * (t.val / 8) + a.val) (hk : kk.val = 2048 * (t.val % 8) + k.val) :
    (iblk2 V c 0 t : Vec Ideal S1024x2048 .f32) (ix2 a k) = adj2 V c (ix2 p kk) := by
  obtain ⟨e0, e1, -⟩ := where2 t
  unfold iblk2
  rw [View.read_apply]
  show V c main_arg1 _ = V c main_arg1 _
  congr 1
  funext b
  apply Fin.ext
  match b with
  | ⟨0, _⟩ => show win2_0.index t (0 : Fin 2) * 1024 + 1 * a.val = p.val; omega
  | ⟨1, _⟩ => show win2_0.index t (1 : Fin 2) * 2048 + 1 * k.val = kk.val; omega

theorem slab2_apply (c : Dev nD) (t : Fin cfg2.N) (k : Fin 2048) (q : Fin 128) (kk : Fin 16384)
    (hk : kk.val = 2048 * (t.val % 8) + k.val) :
    (slab2 V c t : Vec Ideal S2048x128 .bf16) (ix2 k q) = rhs2 V c (ix2 kk q) := by
  obtain ⟨-, -, e2, e3, -, -, e6, e7⟩ := where2 t
  unfold slab2 iblk2
  show (((cfg2.win 1).blk t).view.read (Elt Ideal) (V c main_v2)) _ = _
  rw [View.read_apply]
  show V c main_v2 _ = V c main_v2 _
  congr 1
  funext b
  apply Fin.ext
  match b with
  | ⟨0, _⟩ => show win2_1.index t (0 : Fin 2) * 16384 + 1 * (k2_off1 (grid2.coords t) (0 : Fin 2) + 1 * k.val) = kk.val; omega
  | ⟨1, _⟩ => show win2_1.index t (1 : Fin 2) * 128 + 1 * (k2_off1 (grid2.coords t) (1 : Fin 2) + 1 * q.val) = q.val; omega

def part2 (c : Dev nD) (p : Fin 16384) (q : Fin 128) (b : ℕ) : EReal :=
  if h : b < 8 then ∑ k : Fin 2048, adj2 V c (ix2 p ⟨2048 * b + k.val, by omega⟩) * rhs2 V c (ix2 ⟨2048 * b + k.val, by omega⟩ q) else 0

theorem step2 (c : Dev nD) (t : Fin cfg2.N) (z : Vec Ideal S1024x128 .f32) (a : Fin 1024) (q : Fin 128) (p : Fin 16384)
    (hp : p.val = 1024 * (t.val / 8) + a.val) :
    k2_pay2 (iblk2 V c 0 t) (slab2 V c t) z (ix2 a q) = z (ix2 a q) + part2 V c p q (t.val % 8) := by
  refine (pay2_2_apply _ _ z a q).trans ?_
  have hb : t.val % 8 < 8 := Nat.mod_lt _ (by decide)
  unfold part2
  rw [dif_pos hb]
  refine congrArg (z (ix2 a q) + ·) (Finset.sum_congr rfl fun k _ => ?_)
  rw [blk2_apply V c t a k p ⟨2048 * (t.val % 8) + k.val, by omega⟩ hp rfl,
    slab2_apply V c t k q ⟨2048 * (t.val % 8) + k.val, by omega⟩ rfl]

theorem acc2_apply (c : Dev nD) : ∀ (n : ℕ) (h : n < cfg2.N) (a : Fin 1024) (q : Fin 128) (p : Fin 16384),
    p.val = 1024 * (n / 8) + a.val →
    acc2 V c n h (ix2 a q) = ∑ b ∈ Finset.range (n % 8 + 1), part2 V c p q b
  | 0, h, a, q, p, hp => by
    rw [acc2]
    refine (step2 V c ⟨0, h⟩ _ a q p hp).trans ?_
    rw [pay2_1_apply, zero_add]
    show part2 V c p q (0 % 8) = ∑ b ∈ Finset.range (0 % 8 + 1), part2 V c p q b
    rw [Nat.zero_mod, Finset.sum_range_one]
  | n + 1, h, a, q, p, hp => by
    rw [acc2]
    refine (step2 V c ⟨n + 1, h⟩ _ a q p hp).trans ?_
    show _ + part2 V c p q ((n + 1) % 8) = _
    by_cases h0 : (n + 1) % 8 = 0
    · rw [if_pos h0, pay2_1_apply, zero_add, h0, Finset.sum_range_one]
    · rw [if_neg h0, acc2_apply c n (Nat.lt_of_succ_lt h) a q p (by omega)]
      have e : (n + 1) % 8 = n % 8 + 1 := by omega
      rw [e, Finset.sum_range_succ _ (n % 8 + 1)]

theorem sum_runs2 (f : Fin 16384 → EReal) :
    ∑ k : Fin 16384, f k = ∑ b : Fin 8, ∑ kk : Fin 2048, f ⟨2048 * b.val + kk.val, by omega⟩ := by
  rw [← Equiv.sum_comp (finProdFinEquiv (m := 8) (n := 2048)) f, Fintype.sum_prod_type]
  refine Finset.sum_congr rfl fun b _ => Finset.sum_congr rfl fun kk _ => congrArg f (Fin.ext ?_)
  show (finProdFinEquiv (b, kk)).val = 2048 * b.val + kk.val
  rw [finProdFinEquiv_apply_val]
  show kk.val + 2048 * b.val = 2048 * b.val + kk.val
  omega

theorem parts2_sum (c : Dev nD) (p : Fin 16384) (q : Fin 128) :
    ∑ b ∈ Finset.range 8, part2 V c p q b = mm (ofArr (adj2 V c)) (ofArr (rhs2 V c)) p q := by
  rw [Finset.sum_range]
  show ∑ b : Fin 8, part2 V c p q b.val = ∑ k : Fin 16384, adj2 V c (ix2 p k) * rhs2 V c (ix2 k q)
  rw [sum_runs2 fun k => adj2 V c (ix2 p k) * rhs2 V c (ix2 k q)]
  refine Finset.sum_congr rfl fun b _ => ?_
  unfold part2
  rw [dif_pos b.isLt]

def prod2 (c : Dev nD) : Arr 16384 128 := fun i => mm (ofArr (adj2 V c)) (ofArr (rhs2 V c)) (i 0) (i 1)

theorem val2_after (c : Dev nD) (t : Fin cfg2.N) : (dat2 (F := Ideal) V c).after 2 t = acc2 V c t.val t.isLt := by
  dsimp only [dat2]

theorem flushed2_eq (c : Dev nD) (t : Fin cfg2.N) (hf : (cfg2.win 2).flush t = true) :
    (dat2 (F := Ideal) V c).flushed 2 t = ((cfg2.win 2).blk t).view.read (Elt Ideal) (prod2 V c) := by
  have h7 : t.val % 8 = 7 := (flush2_2 t).mp hf
  have hN : cfg2.N = 128 := N_2
  have ht : t.val < 128 := hN ▸ t.isLt
  obtain ⟨-, -, -, -, e4, e5, -⟩ := where2 t
  have hsum : ∀ (a : Fin 1024) (q : Fin 128), acc2 V c t.val t.isLt (ix2 a q)
      = prod2 V c (ix2 (⟨1024 * (t.val / 8) + a.val, by omega⟩ : Fin 16384) q) := fun a q => by
    have hacc := acc2_apply V c t.val t.isLt a q ⟨1024 * (t.val / 8) + a.val, by omega⟩ rfl
    rw [h7] at hacc
    exact hacc.trans (parts2_sum V c _ q)
  show (cfg2.win 2).cut (grid2.coords t) ((dat2 (F := Ideal) V c).after 2 t) = _
  rw [val2_after]
  generalize acc2 V c t.val t.isLt = Z at hsum ⊢
  generalize prod2 V c = G at hsum ⊢
  funext j
  obtain ⟨a, q, rfl⟩ : ∃ (a : Fin 1024) (q : Fin 128), j = ix2 a q := ⟨j 0, j 1, eq_ix2 j⟩
  rw [View.read_apply]
  have hemb : ((cfg2.win 2).blk t).view.emb (ix2 a q) = ix2 (⟨1024 * (t.val / 8) + a.val, by omega⟩ : Fin 16384) q := by
    funext b
    apply Fin.ext
    match b with
    | ⟨0, _⟩ => show win2_2.index t (0 : Fin 2) * 1024 + 1 * a.val = 1024 * (t.val / 8) + a.val; omega
    | ⟨1, _⟩ => show win2_2.index t (1 : Fin 2) * 128 + 1 * q.val = q.val; omega
  rw [hemb]
  have hx : (cfg2.win 2).xinj (grid2.coords t) (ix2 a q) = ix2 a q := funext fun b => Fin.ext rfl
  refine Eq.trans (congrArg Z hx) ((hsum a q).trans ?_)
  rfl

theorem mem_blk2 (t : Fin cfg2.N) (i : S16384x128.Idx) :
    i ∈ ((cfg2.win 2).blk t).view.set ↔ ∀ a : Fin 2, win2_2.index t a * S1024x128.size a ≤ (i a).val ∧ (i a).val < win2_2.index t a * S1024x128.size a + S1024x128.size a := by
  show i ∈ ((View.whole main_v3).slice (win2_2.rect t)).set ↔ _
  rw [View.set_slice_whole, Rect.mem_set_unit]
  exact Iff.rfl

theorem rows2_cover (i : S16384x128.Idx) : ∃ t : Fin cfg2.N, (cfg2.win 2).flush t = true ∧ i ∈ ((cfg2.win 2).blk t).view.set := by
  have hN : cfg2.N = 128 := N_2
  have hi0 : (i 0).val < 16384 := (i 0).isLt
  have hi1 : (i 1).val < 128 := (i 1).isLt
  have hlt : 8 * ((i 0).val / 1024) + 7 < cfg2.N := by rw [hN]; omega
  obtain ⟨-, -, -, -, e4, e5, -⟩ := where2 ⟨8 * ((i 0).val / 1024) + 7, hlt⟩
  refine ⟨⟨8 * ((i 0).val / 1024) + 7, hlt⟩, (flush2_2 _).mpr (by show (8 * ((i 0).val / 1024) + 7) % 8 = 7; omega), ?_⟩
  rw [mem_blk2]
  intro a
  match a with
  | ⟨0, _⟩ =>
    show win2_2.index ⟨8 * ((i 0).val / 1024) + 7, hlt⟩ (0 : Fin 2) * 1024 ≤ (i 0).val ∧ (i 0).val < win2_2.index ⟨8 * ((i 0).val / 1024) + 7, hlt⟩ (0 : Fin 2) * 1024 + 1024
    rw [e4]
    show (8 * ((i 0).val / 1024) + 7) / 8 * 1024 ≤ (i 0).val ∧ (i 0).val < (8 * ((i 0).val / 1024) + 7) / 8 * 1024 + 1024
    omega
  | ⟨1, _⟩ =>
    show win2_2.index ⟨8 * ((i 0).val / 1024) + 7, hlt⟩ (1 : Fin 2) * 128 ≤ (i 1).val ∧ (i 1).val < win2_2.index ⟨8 * ((i 0).val / 1024) + 7, hlt⟩ (1 : Fin 2) * 128 + 128
    rw [e5]
    omega

theorem final2 (c : Dev nD) (p : Fin 16384) (q : Fin 128) :
    (dat2 (F := Ideal) V c).arrAt 2 cfg2.N (ix2 p q) = mm (ofArr (V c main_arg1)) (ofArr (V c main_v2)) p q := by
  have e := (dat2 (F := Ideal) V c).arrAt_eq_of_cover 2 (prod2 V c) (fun t hf => flushed2_eq V c t hf) rows2_cover
  exact (congrFun e (ix2 p q)).trans rfl

end Cert.KernelIdeal.Hand

end
-- ==== Proof.KI.Val3.lean ====
/- Call 3's output array: the logistic of the three weighted row sums. -/
import proofs.«418033_j40699110097036_3_alg».proof.Proof.KI.Data
import proofs.«418033_j40699110097036_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Spec

variable (V : (c : Dev nD) → (b : Ref sig .tc) → Buf (Elt Ideal) ((c : Thread nD τ).loc b))

theorem rowdot3 (a : FVec Ideal S8000x128 .f32) (r : FVec Ideal S1x128 .f32) (hφ : FKind.Formats .f32)
    (hacc : (0x00000000#32 : BitVec 32) = FKind.add.neutral .f32 hφ) (e : Fin 8000) :
    shapeCast S8000x1 (multiReduction (F := Ideal) .add [1] S8000 (mulf a (broadcastTo S8000x128 r broadcasts_S1x128_S8000x128))
        0x00000000#32 reduces_S8000x128_S8000 hφ hacc) shapeCasts_S8000_S8000x1 (ix2 e (0 : Fin 1))
      = ∑ k : Fin 128, a (ix2 e k) * r (ix2 (0 : Fin 1) k) := by
  refine (shapeCast_apply _ shapeCasts_S8000_S8000x1 (ix2 e (0 : Fin 1)) (ix1 e) ?_).trans ?_
  · rw [Shape.rowMajor_val_one, Shape.rowMajor_val_two]
    show e.val = e.val * 1 + 0
    omega
  refine (Ideal.multiReduction_add_single _ 0x00000000#32 reduces_S8000x128_S8000 hφ hacc (ix1 e)).trans ?_
  refine Finset.sum_congr rfl fun (k : Fin 128) _ => ?_
  have hl : reduces_S8000x128_S8000.lift (ix1 e) k = ix2 e k :=
    funext fun c => Fin.ext (by match c with | ⟨0, _⟩ => rfl | ⟨1, _⟩ => rfl)
  rw [hl]
  show a (ix2 e k) * broadcastTo S8000x128 r broadcasts_S1x128_S8000x128 (ix2 e k) = _
  rw [broadcastTo_1b_ab_apply]

theorem relu3_apply (z : FVec Ideal S8000x128 .f32) (j : S8000x128.Idx) :
    maximumf z (broadcast S8000x128 (Scalar.ofBits (F := Ideal) .f32 0x00000000#32)) j = max (z j) 0 := by
  show max (z j) (Ideal.ofBits .f32 0x00000000#32) = _
  rw [Ideal.ofBits_zero_f32]

theorem pay3_apply (zi zj : Vec Ideal S8000x128 .f32) (u v w : Vec Ideal S1x128 .f32) (e : Fin 8000) :
    k3_pay1 (F := Ideal) zi zj u v w (ix2 e (0 : Fin 1))
      = Ideal.logistic ((∑ k : Fin 128, max (zi (ix2 e k)) 0 * u (ix2 (0 : Fin 1) k)
            + ∑ k : Fin 128, max (zj (ix2 e k)) 0 * v (ix2 (0 : Fin 1) k))
          + ∑ k : Fin 128, (zi (ix2 e k) * zj (ix2 e k)) * w (ix2 (0 : Fin 1) k)) := by
  unfold k3_pay1
  simp only [shapeCast_self]
  refine congrArg Ideal.logistic ?_
  refine congrArg₂ (· + ·) (congrArg₂ (· + ·) ?_ ?_) ?_
  · refine (rowdot3 _ _ _ _ e).trans (Finset.sum_congr rfl fun k _ => ?_)
    rw [relu3_apply]
  · refine (rowdot3 _ _ _ _ e).trans (Finset.sum_congr rfl fun k _ => ?_)
    rw [relu3_apply]
  · refine (rowdot3 _ _ _ _ e).trans (Finset.sum_congr rfl fun k _ => ?_)
    rfl

abbrev ziarr (c : Dev nD) : Vec Ideal S1000000x128 .f32 := V c main_v7
abbrev zjarr (c : Dev nD) : Vec Ideal S1000000x128 .f32 := V c main_v10
abbrev uarr (c : Dev nD) : Vec Ideal S1x128 .f32 := V c main_v16
abbrev varr (c : Dev nD) : Vec Ideal S1x128 .f32 := V c main_v18
abbrev warr (c : Dev nD) : Vec Ideal S1x128 .f32 := V c main_v19
abbrev ziblk (c : Dev nD) (t : Fin cfg3.N) : Vec Ideal S8000x128 .f32 := iblk3 V c 0 t
abbrev zjblk (c : Dev nD) (t : Fin cfg3.N) : Vec Ideal S8000x128 .f32 := iblk3 V c 1 t
abbrev ublk (c : Dev nD) (t : Fin cfg3.N) : Vec Ideal S1x128 .f32 := iblk3 V c 2 t
abbrev vblk (c : Dev nD) (t : Fin cfg3.N) : Vec Ideal S1x128 .f32 := iblk3 V c 3 t
abbrev wblk (c : Dev nD) (t : Fin cfg3.N) : Vec Ideal S1x128 .f32 := iblk3 V c 4 t

abbrev decarr (c : Dev nD) : Vec Ideal S1000000x1 .f32 :=
  fun i => dec3 (ofArr (ziarr V c)) (ofArr (zjarr V c)) (ofArr (uarr V c)) (ofArr (varr V c)) (ofArr (warr V c)) (i 0)

theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem ziblk_apply (c : Dev nD) (t : Fin cfg3.N) (r : Fin 8000) (k : Fin 128) (R : Fin 1000000)
    (hR : R.val = 8000 * t.val + r.val) : ziblk V c t (ix2 r k) = ziarr V c (ix2 R k) := by
  obtain ⟨e0, e1, -⟩ := idx_facts3 t
  show V c main_v7 (((cfg3.win 0).blk t).view.emb (ix2 r k)) = V c main_v7 (ix2 R k)
  refine congrArg (V c main_v7) (funext fun a => Fin.ext ?_)
  match a with
  | ⟨0, _⟩ => show win3_0.index t (0 : Fin 2) * 8000 + 1 * r.val = R.val; omega
  | ⟨1, _⟩ => show win3_0.index t (1 : Fin 2) * 128 + 1 * k.val = k.val; omega

theorem zjblk_apply (c : Dev nD) (t : Fin cfg3.N) (r : Fin 8000) (k : Fin 128) (R : Fin 1000000)
    (hR : R.val = 8000 * t.val + r.val) : zjblk V c t (ix2 r k) = zjarr V c (ix2 R k) := by
  obtain ⟨-, -, e2, e3, -⟩ := idx_facts3 t
  show V c main_v10 (((cfg3.win 1).blk t).view.emb (ix2 r k)) = V c main_v10 (ix2 R k)
  refine congrArg (V c main_v10) (funext fun a => Fin.ext ?_)
  match a with
  | ⟨0, _⟩ => show win3_1.index t (0 : Fin 2) * 8000 + 1 * r.val = R.val; omega
  | ⟨1, _⟩ => show win3_1.index t (1 : Fin 2) * 128 + 1 * k.val = k.val; omega

theorem ublk_apply (c : Dev nD) (t : Fin cfg3.N) (k : Fin 128) :
    ublk V c t (ix2 (0 : Fin 1) k) = uarr V c (ix2 (0 : Fin 1) k) := by
  obtain ⟨-, -, -, -, e4, e5, -⟩ := idx_facts3 t
  show V c main_v16 (((cfg3.win 2).blk t).view.emb (ix2 (0 : Fin 1) k)) = V c main_v16 (ix2 (0 : Fin 1) k)
  refine congrArg (V c main_v16) (funext fun a => Fin.ext ?_)
  match a with
  | ⟨0, _⟩ => show win3_2.index t (0 : Fin 2) * 1 + 1 * 0 = 0; omega
  | ⟨1, _⟩ => show win3_2.index t (1 : Fin 2) * 128 + 1 * k.val = k.val; omega

theorem vblk_apply (c : Dev nD) (t : Fin cfg3.N) (k : Fin 128) :
    vblk V c t (ix2 (0 : Fin 1) k) = varr V c (ix2 (0 : Fin 1) k) := by
  obtain ⟨-, -, -, -, -, -, e6, e7, -⟩ := idx_facts3 t
  show V c main_v18 (((cfg3.win 3).blk t).view.emb (ix2 (0 : Fin 1) k)) = V c main_v18 (ix2 (0 : Fin 1) k)
  refine congrArg (V c main_v18) (funext fun a => Fin.ext ?_)
  match a with
  | ⟨0, _⟩ => show win3_3.index t (0 : Fin 2) * 1 + 1 * 0 = 0; omega
  | ⟨1, _⟩ => show win3_3.index t (1 : Fin 2) * 128 + 1 * k.val = k.val; omega

theorem wblk_apply (c : Dev nD) (t : Fin cfg3.N) (k : Fin 128) :
    wblk V c t (ix2 (0 : Fin 1) k) = warr V c (ix2 (0 : Fin 1) k) := by
  obtain ⟨-, -, -, -, -, -, -, -, e8, e9, -⟩ := idx_facts3 t
  show V c main_v19 (((cfg3.win 4).blk t).view.emb (ix2 (0 : Fin 1) k)) = V c main_v19 (ix2 (0 : Fin 1) k)
  refine congrArg (V c main_v19) (funext fun a => Fin.ext ?_)
  match a with
  | ⟨0, _⟩ => show win3_4.index t (0 : Fin 2) * 1 + 1 * 0 = 0; omega
  | ⟨1, _⟩ => show win3_4.index t (1 : Fin 2) * 128 + 1 * k.val = k.val; omega

theorem flushed3_eq (c : Dev nD) (t : Fin cfg3.N) :
    (dat3 (F := Ideal) V c).flushed 5 t = ((cfg3.win 5).blk t).view.read (Elt Ideal) (decarr V c) := by
  obtain ⟨-, -, -, -, -, -, -, -, -, -, e10, e11⟩ := idx_facts3 t
  have ht : t.val < 125 := by have := t.isLt; have hN : cfg3.N = 125 := N_3; omega
  funext y
  obtain ⟨p, q, rfl⟩ : ∃ (p : Fin 8000) (q : Fin 1), y = ix2 p q := ⟨y 0, y 1, eq_ix2 y⟩
  obtain rfl : q = 0 := Subsingleton.elim _ _
  have hemb : ((cfg3.win 5).blk t).view.emb (ix2 p (0 : Fin 1))
      = ix2 (⟨8000 * t.val + p.val, by omega⟩ : Fin 1000000) (0 : Fin 1) := by
    funext a; apply Fin.ext
    match a with
    | ⟨0, _⟩ => show win3_5.index t (0 : Fin 2) * 8000 + 1 * p.val = 8000 * t.val + p.val; omega
    | ⟨1, _⟩ => show win3_5.index t (1 : Fin 2) * 1 + 1 * 0 = 0; omega
  show k3_pay1 (F := Ideal) (ziblk V c t) (zjblk V c t) (ublk V c t) (vblk V c t) (wblk V c t) (ix2 p (0 : Fin 1))
      = decarr V c (((cfg3.win 5).blk t).view.emb (ix2 p (0 : Fin 1)))
  rw [hemb]
  refine (pay3_apply (ziblk V c t) (zjblk V c t) (ublk V c t) (vblk V c t) (wblk V c t) p).trans ?_
  show _ = dec3 (ofArr (ziarr V c)) (ofArr (zjarr V c)) (ofArr (uarr V c)) (ofArr (varr V c)) (ofArr (warr V c))
      (⟨8000 * t.val + p.val, by omega⟩ : Fin 1000000)
  unfold dec3
  refine congrArg Ideal.logistic ?_
  refine congrArg₂ (· + ·) (congrArg₂ (· + ·) (Finset.sum_congr rfl fun k _ => ?_) (Finset.sum_congr rfl fun k _ => ?_))
    (Finset.sum_congr rfl fun k _ => ?_)
  · rw [ziblk_apply V c t p k ⟨8000 * t.val + p.val, by omega⟩ rfl, ublk_apply V c t k]; rfl
  · rw [zjblk_apply V c t p k ⟨8000 * t.val + p.val, by omega⟩ rfl, vblk_apply V c t k]; rfl
  · rw [ziblk_apply V c t p k ⟨8000 * t.val + p.val, by omega⟩ rfl, zjblk_apply V c t p k ⟨8000 * t.val + p.val, by omega⟩ rfl,
      wblk_apply V c t k]; rfl

theorem mem_blk3 (t : Fin cfg3.N) (i : S1000000x1.Idx) :
    i ∈ ((cfg3.win 5).blk t).view.set ↔ ∀ a : Fin 2, win3_5.index t a * S8000x1.size a ≤ (i a).val ∧ (i a).val < win3_5.index t a * S8000x1.size a + S8000x1.size a := by
  show i ∈ ((View.whole main_v20).slice (win3_5.rect t)).set ↔ _
  rw [View.set_slice_whole, Rect.mem_set_unit]
  exact Iff.rfl

theorem cover3 (i : S1000000x1.Idx) :
    ∃ t : Fin cfg3.N, (cfg3.win 5).flush t = true ∧ i ∈ ((cfg3.win 5).blk t).view.set := by
  have hi0 : (i 0).val < 1000000 := (i 0).isLt
  have hi1 : (i 1).val < 1 := (i 1).isLt
  have hN : cfg3.N = 125 := N_3
  obtain ⟨t, ht⟩ : ∃ t : Fin cfg3.N, t.val = (i 0).val / 8000 := ⟨⟨(i 0).val / 8000, by omega⟩, rfl⟩
  obtain ⟨-, -, -, -, -, -, -, -, -, -, e10, e11⟩ := idx_facts3 t
  refine ⟨t, flush3_5 t, ?_⟩
  rw [mem_blk3]
  intro a
  match a with
  | ⟨0, _⟩ => show win3_5.index t (0 : Fin 2) * 8000 ≤ (i 0).val ∧ (i 0).val < win3_5.index t (0 : Fin 2) * 8000 + 8000; omega
  | ⟨1, _⟩ => show win3_5.index t (1 : Fin 2) * 1 ≤ (i 1).val ∧ (i 1).val < win3_5.index t (1 : Fin 2) * 1 + 1; omega

theorem arr3_eq (c : Dev nD) : (dat3 (F := Ideal) V c).arrAt 5 cfg3.N = decarr V c :=
  (dat3 (F := Ideal) V c).arrAt_eq_of_cover 5 (decarr V c) (fun t _ => flushed3_eq V c t) cover3

theorem final3 (c : Dev nD) (e : Fin 1000000) :
    (dat3 (F := Ideal) V c).arrAt 5 cfg3.N (ix2 e 0)
      = dec3 (ofArr (V c main_v7)) (ofArr (V c main_v10)) (ofArr (V c main_v16)) (ofArr (V c main_v18)) (ofArr (V c main_v19)) e := by
  exact congrFun (arr3_eq V c) (ix2 e 0)

end Cert.KernelIdeal.Hand

end
-- ==== Proof.KI.GlueA.lean ====
/- What calls 1, 2 and 3 find on entry besides the gathered rows: adj, t1, t2, W2, and the three folded rows u, v, w. -/
import proofs.«418033_j40699110097036_3_alg».proof.Proof.KI.Chain
import proofs.«418033_j40699110097036_3_alg».proof.Proof.Spec
import proofs.«418033_j40699110097036_3_alg».proof.Proof.LibMatmul
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Spec

variable (m : (ℓ : Loc nD τ sig) → Buf (Elt Ideal) ℓ) (c : Dev nD)

theorem ent1_arg1 : ent1 m c main_arg1 = m ((c.tc : Thread nD τ).loc main_arg1) := by
  exact (V2_of m (outsB m) c main_arg1 (by decide)).trans <| (V1_of m (outsB m) c main_arg1 (by decide)).trans rfl

theorem ent1_v0 : ent1 m c main_v0 = t1arr m c := by
  refine (V2_of m (outsB m) c main_v0 (by decide)).trans ?_
  show Function.update (V0 m c) main_v0 (outsB m 1 main_v0 c) main_v0 = _
  rw [Function.update_self]
  simp only [outsB, dif_pos]

theorem ent1_v1 : (ofArr (ent1 m c main_v1) : Mat 256 128) = ofArr (m ((c.tc : Thread nD τ).loc main_arg3)) := by

  have e : ent1 m c main_v1 = ((truncf (F := Ideal) .bf16 · bitsLt_bf16_f32) : (⟨S256x128, .f32⟩ : BufTy).Contents (Elt Ideal) → (⟨S256x128, .bf16⟩ : BufTy).Contents (Elt Ideal)) (V1 m (outsB m) c main_arg3) := by
    show StableHlo.after hostOps1 _ (Proc.devRef .tc main_v1) = _
    after_results
  have e' : V1 m (outsB m) c main_arg3 = m ((c.tc : Thread nD τ).loc main_arg3) := (V1_of m (outsB m) c main_arg3 (by decide)).trans rfl
  funext p q
  exact (congrFun e (ix2 p q)).trans (congrFun e' (ix2 p q))

theorem ent2_arg1 : ent2 m c main_arg1 = m ((c.tc : Thread nD τ).loc main_arg1) := by
  refine (V3_of m (outsC m) c main_arg1 (by decide)).trans ?_
  exact (V2_of m (outsC m) c main_arg1 (by decide)).trans <| (V1_of m (outsC m) c main_arg1 (by decide)).trans rfl

theorem ent2_v2 : ent2 m c main_v2 = t2arr m c := by
  show Function.update (V2 m (outsC m) c) main_v2 (outsC m 3 main_v2 c) main_v2 = _
  rw [Function.update_self]
  simp only [outsC, dif_pos]

theorem mv_apply (A : FVec Ideal S128x128 .f32) (b : FVec Ideal S128x1 .f32)
    (r : Fin 128) (s : Fin 1) :
    Host.dotGeneral (F := Ideal) dot_S128x128_S128x1_S128x1_1_0_0_1_n_n none A b (ix2 r s)
      = ∑ k : Fin 128, A (ix2 r k) * b (ix2 k s) :=
  Cert.Lib.Matmul.dotGeneral_plain 128 128 1 A b r s

theorem foldRow_apply (o : ℕ) (Wtwo : FVec Ideal S256x128 .f32) (Wthree : FVec Ideal S256x1 .f32)
    (h2 : S256x128.Slices ![o, 0] S128x128) (h3 : S256x1.Slices ![0, 0] S128x1) (ht : S128x1.Transposes [1, 0] S1x128)
    (r : Fin 128 → Fin 256) (hr : ∀ k, (r k).val = o + k.val) (p : Fin 1) (q : Fin 128) :
    transpose S1x128 [1, 0] (Host.dotGeneral (F := Ideal) dot_S128x128_S128x1_S128x1_1_0_0_1_n_n none
        (extractStridedSlice S128x128 ![o, 0] Wtwo h2) (extractStridedSlice S128x1 ![0, 0] Wthree h3)) ht (ix2 p q)
      = ∑ j : Fin 128, Wtwo (ix2 (r q) j) * Wthree (ix2 (lo j) (0 : Fin 1)) := by
  rw [transpose_ix2_apply, mv_apply]
  refine Finset.sum_congr rfl fun k _ => ?_
  rw [slice2_axis0_apply o Wtwo h2 q k (r q) (hr q), slice2_axis0_apply 0 Wthree h3 k p (lo k) (Nat.zero_add _).symm,
    Fin.fin_one_eq_zero p]

theorem lowRow_apply (Wthree : FVec Ideal S256x1 .f32)
    (h3 : S256x1.Slices ![128, 0] S128x1) (ht : S128x1.Transposes [1, 0] S1x128) (p : Fin 1) (q : Fin 128) :
    transpose S1x128 [1, 0] (extractStridedSlice S128x1 ![128, 0] Wthree h3) ht (ix2 p q) = Wthree (ix2 (hi q) (0 : Fin 1)) := by
  rw [transpose_ix2_apply, slice2_axis0_apply 128 Wthree h3 q p (hi q) rfl, Fin.fin_one_eq_zero p]

theorem V8_arg4 : V8 m (outsD m) c main_arg4 = m ((c.tc : Thread nD τ).loc main_arg4) :=
  (V8_of m (outsD m) c main_arg4 (by decide)).trans <| (V7_of m (outsD m) c main_arg4 (by decide)).trans <| (V6_of m (outsD m) c main_arg4 (by decide)).trans <| (V5_of m (outsD m) c main_arg4 (by decide)).trans <| (V4_of m (outsD m) c main_arg4 (by decide)).trans <| (V3_of m (outsD m) c main_arg4 (by decide)).trans <| (V2_of m (outsD m) c main_arg4 (by decide)).trans <| (V1_of m (outsD m) c main_arg4 (by decide)).trans rfl

theorem V8_arg5 : V8 m (outsD m) c main_arg5 = m ((c.tc : Thread nD τ).loc main_arg5) :=
  (V8_of m (outsD m) c main_arg5 (by decide)).trans <| (V7_of m (outsD m) c main_arg5 (by decide)).trans <| (V6_of m (outsD m) c main_arg5 (by decide)).trans <| (V5_of m (outsD m) c main_arg5 (by decide)).trans <| (V4_of m (outsD m) c main_arg5 (by decide)).trans <| (V3_of m (outsD m) c main_arg5 (by decide)).trans <| (V2_of m (outsD m) c main_arg5 (by decide)).trans <| (V1_of m (outsD m) c main_arg5 (by decide)).trans rfl

theorem ent3_v16 : (ofArr (ent3 m c main_v16) : Mat 1 128) = uRow (ofArr (m ((c.tc : Thread nD τ).loc main_arg4))) (ofArr (m ((c.tc : Thread nD τ).loc main_arg5))) := by

  have e : ent3 m c main_v16 = (transpose S1x128 [1, 0] (Host.dotGeneral (F := Ideal) (φ₁ := .f32) (φ₂ := .f32) dot_S128x128_S128x1_S128x1_1_0_0_1_n_n none
      (extractStridedSlice S128x128 ![0, 0] (V8 m (outsD m) c main_arg4) Facts₀.slices_S256x128_S128x128_0_0)
      (extractStridedSlice S128x1 ![0, 0] (V8 m (outsD m) c main_arg5) Facts₀.slices_S256x1_S128x1_0_0)) Facts₀.transposes_S128x1_S1x128_1_0 : (⟨S1x128, .f32⟩ : BufTy).Contents (Elt Ideal)) := by
    show StableHlo.after hostOps3_4 _ (Proc.devRef .tc main_v16) = _
    after_results
  funext p q
  refine (congrFun e (ix2 p q)).trans ?_
  refine (foldRow_apply 0 (V8 m (outsD m) c main_arg4) (V8 m (outsD m) c main_arg5) _ _ _ lo (fun k => (Nat.zero_add _).symm) p q).trans ?_
  rw [V8_arg4, V8_arg5]
  rfl

theorem ent3_v18 : (ofArr (ent3 m c main_v18) : Mat 1 128) = vRow (ofArr (m ((c.tc : Thread nD τ).loc main_arg4))) (ofArr (m ((c.tc : Thread nD τ).loc main_arg5))) := by

  have e : ent3 m c main_v18 = (transpose S1x128 [1, 0] (Host.dotGeneral (F := Ideal) (φ₁ := .f32) (φ₂ := .f32) dot_S128x128_S128x1_S128x1_1_0_0_1_n_n none
      (extractStridedSlice S128x128 ![128, 0] (V8 m (outsD m) c main_arg4) Facts₀.slices_S256x128_S128x128_128_0)
      (extractStridedSlice S128x1 ![0, 0] (V8 m (outsD m) c main_arg5) Facts₀.slices_S256x1_S128x1_0_0)) Facts₀.transposes_S128x1_S1x128_1_0 : (⟨S1x128, .f32⟩ : BufTy).Contents (Elt Ideal)) := by
    show StableHlo.after hostOps3_4 _ (Proc.devRef .tc main_v18) = _
    after_results
  funext p q
  refine (congrFun e (ix2 p q)).trans ?_
  refine (foldRow_apply 128 (V8 m (outsD m) c main_arg4) (V8 m (outsD m) c main_arg5) _ _ _ hi (fun k => rfl) p q).trans ?_
  rw [V8_arg4, V8_arg5]
  rfl

theorem ent3_v19 : (ofArr (ent3 m c main_v19) : Mat 1 128) = wRow (ofArr (m ((c.tc : Thread nD τ).loc main_arg5))) := by

  have e : ent3 m c main_v19 = (transpose S1x128 [1, 0] (extractStridedSlice S128x1 ![128, 0] (V8 m (outsD m) c main_arg5) Facts₀.slices_S256x1_S128x1_128_0) Facts₀.transposes_S128x1_S1x128_1_0 : (⟨S1x128, .f32⟩ : BufTy).Contents (Elt Ideal)) := by
    show StableHlo.after hostOps3_4 _ (Proc.devRef .tc main_v19) = _
    after_results
  funext p q
  refine (congrFun e (ix2 p q)).trans ?_
  exact (lowRow_apply (V8 m (outsD m) c main_arg5) _ _ p q).trans (congrFun (V8_arg5 m c) _)

end Cert.KernelIdeal.Hand

end
-- ==== Proof.LibRowGather.lean ====
/- A gather of whole rows of a matrix, read at an entry: row idx[n] (signed, clamped to the matrix), column k. -/
import Idealize.ShloMosaic.PureOps.ShapeOps
import Idealize.ShloMosaic.PureOps.Dims
import Idealize.ShloMosaic.Lib.ValueIdx
import Idealize.ShloMosaic.Lib.Pipeline.Value

namespace Cert.Lib.RowGather

open Idealize.ShloMosaic
open Idealize.ShloMosaic.ValueIdx

section Pieces
variable {R C N : ℕ} (d : GatherDims ⟨2, ![R, C]⟩ ⟨2, ![N, 1]⟩ ⟨2, ![N, C]⟩)

theorem getElem_eq_of_singleton {β : Type} {l : List β} {v : β} (e : l = [v]) (i : ℕ) (hi : i < l.length) :
    l[i] = v :=
  List.mem_singleton.mp (e ▸ List.getElem_mem hi)

theorem siIdx_row (h1 : d.offsetDims = [1]) (h6 : d.indexVectorDim = 1) (j : (⟨2, ![N, C]⟩ : Shape).Idx)
    (c : Fin d.startIndexMap.length) : d.siIdx j c = ix2 (n0 := N) (n1 := 1) (j 0) ⟨0, Nat.one_pos⟩ := by
  funext b
  refine Fin.ext ?_
  match b with
  | ⟨0, _⟩ =>
    unfold GatherDims.siIdx
    rw [dif_neg (by rw [h6]; exact Nat.zero_ne_one)]
    unfold GatherDims.siCoord
    have hbd : d.batchDims = [0] := by
      show Shape.kept _ d.offsetDims = _
      rw [h1]; rfl
    exact congrArg (fun a => (j a).val) (getElem_eq_of_singleton hbd _ _)
  | ⟨1, _⟩ =>
    show (d.siIdx j c ⟨1, _⟩).val = 0
    exact Nat.lt_one_iff.mp (d.siIdx j c ⟨1, _⟩).isLt

theorem row_coord (h1 : d.offsetDims = [1]) (h2 : d.collapsedSliceDims = [0]) (h5 : d.startIndexMap = [0])
    (h6 : d.indexVectorDim = 1) (j : (⟨2, ![N, C]⟩ : Shape).Idx) (idx : IVec ⟨2, ![N, 1]⟩ 32) :
    d.start j idx 0 + d.offCoord j 0
      = min (idx (ix2 (n0 := N) (n1 := 1) (j 0) ⟨0, Nat.one_pos⟩)).toInt.toNat (R - 1) := by
  have hc : (0 : Fin 2) ∈ d.collapsedSliceDims := by rw [h2]; exact List.mem_singleton_self _
  have hm : (0 : Fin 2) ∈ d.startIndexMap := by rw [h5]; exact List.mem_singleton_self _
  rw [d.offCoord_eq_zero j 0 (fun hk => ((d.mem_sKept _).1 hk).1 hc), Nat.add_zero]
  unfold GatherDims.start
  rw [dif_pos hm, siIdx_row d h1 h6, d.slice_collapsed 0 hc]
  rfl

theorem col_coord (h1 : d.offsetDims = [1]) (h2 : d.collapsedSliceDims = [0]) (h3 : d.operandBatchingDims = [])
    (h5 : d.startIndexMap = [0]) (j : (⟨2, ![N, C]⟩ : Shape).Idx) (idx : IVec ⟨2, ![N, 1]⟩ 32) :
    d.start j idx 1 + d.offCoord j 1 = (j 1).val := by
  have hne : ∀ {l : List (Fin 2)}, l = [0] → (1 : Fin 2) ∉ l := fun e h =>
    Nat.one_ne_zero (congrArg Fin.val (List.mem_singleton.mp (e ▸ h)))
  have hnm : (1 : Fin 2) ∉ d.startIndexMap := hne h5
  have hnc : (1 : Fin 2) ∉ d.collapsedSliceDims := hne h2
  have hnb : (1 : Fin 2) ∉ d.operandBatchingDims := by rw [h3]; exact List.not_mem_nil
  unfold GatherDims.start GatherDims.offCoord
  rw [dif_neg hnm, dif_pos ((d.mem_sKept 1).2 ⟨hnc, hnb⟩), Nat.zero_add]
  exact congrArg (fun a => (j a).val) (getElem_eq_of_singleton h1 _ _)

end Pieces

theorem rowGather_apply {α : Type} {R C N : ℕ} (d : GatherDims ⟨2, ![R, C]⟩ ⟨2, ![N, 1]⟩ ⟨2, ![N, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![R, C]⟩ : Shape).Idx → α) (idx : IVec ⟨2, ![N, 1]⟩ 32) (n : Fin N) (k : Fin C) (hR : 0 < R) :
    Host.gather d x idx (ix2 n k)
      = x (ix2 (n0 := R) (n1 := C) ⟨min (idx (ix2 (n0 := N) (n1 := 1) n ⟨0, Nat.one_pos⟩)).toInt.toNat (R - 1), by omega⟩ k) := by
  unfold Host.gather
  congr 1
  funext a
  refine Fin.ext ?_
  show d.start (ix2 n k) idx a + d.batchCoord (ix2 n k) a + d.offCoord (ix2 n k) a = _
  rw [d.batchCoord_eq_zero _ a (by rw [h3]; exact List.not_mem_nil), Nat.add_zero]
  match a with
  | ⟨0, _⟩ => exact row_coord d h1 h2 h5 h6 (ix2 n k) idx
  | ⟨1, _⟩ => exact col_coord d h1 h2 h3 h5 (ix2 n k) idx

end Cert.Lib.RowGather
-- ==== Proof.LibClampIndex.lean ====
/- Two word facts for a non-negative index: the negative-index normalisation (add n when i < 0) leaves it alone, and the test 0 ≤ i ≤ mx holds. -/
import Idealize.ShloMosaic.PureOps.Ideal

namespace Cert.Lib.ClampIndex

open Idealize.ShloMosaic

theorem norm_id (i n : BitVec 32) (hi0 : 0 ≤ i.toInt) :
    Scalar.select (IntOp.cmpi .slt i 0#32) (IntOp.addi i n) i = i := by
  have h0 : (0#32 : BitVec 32).toInt = 0 := by decide
  have hs : i.slt 0#32 = false := by
    rw [BitVec.slt_eq_decide, h0]; exact decide_eq_false (by omega)
  unfold Scalar.select IntOp.cmpi
  simp only [hs]
  rw [if_neg (by decide)]

theorem inrange_true (i mx : BitVec 32) (hi0 : 0 ≤ i.toInt) (hi : i.toInt ≤ mx.toInt) :
    IntOp.andi (IntOp.cmpi .sge i 0#32) (IntOp.cmpi .sle i mx) = 1#1 := by
  have h0 : (0#32 : BitVec 32).toInt = 0 := by decide
  have hs1 : (0#32 : BitVec 32).sle i = true := by
    rw [BitVec.sle_eq_decide, h0]; exact decide_eq_true hi0
  have hs2 : i.sle mx = true := by
    rw [BitVec.sle_eq_decide]; exact decide_eq_true hi
  unfold IntOp.andi IntOp.cmpi
  simp only [hs1, hs2]
  decide

end Cert.Lib.ClampIndex
-- ==== Proof.KI.GlueB.lean ====
/- The gathered rows call 3 finds on entry: for an endpoint in [0, 16384) the row of z at that endpoint. -/
import proofs.«418033_j40699110097036_3_alg».proof.Proof.KI.Chain
import proofs.«418033_j40699110097036_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
import proofs.«418033_j40699110097036_3_alg».proof.Proof.LibRowGather
import proofs.«418033_j40699110097036_3_alg».proof.Proof.LibClampIndex

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Spec

variable (m : (ℓ : Loc nD τ sig) → Buf (Elt Ideal) ℓ) (c : Dev nD)

def idxCol (i : (⟨S1000000, .i32⟩ : BufTy).Contents (Elt Ideal)) : (⟨S1000000x1, .i32⟩ : BufTy).Contents (Elt Ideal) :=
  broadcastInDim S1000000x1 ![0] bcast_S1000000_S1000000x1_0
    (select (cmpi .slt i (broadcastInDim S1000000 ![] bcast_S_S1000000 (constantI S_ 32 0#32)))
      (addi i (broadcastInDim S1000000 ![] bcast_S_S1000000 (constantI S_ 32 16384#32))) i)

def okRow (j : (⟨S1000000x1, .i32⟩ : BufTy).Contents (Elt Ideal)) : (⟨S1000000, .i1⟩ : BufTy).Contents (Elt Ideal) :=
  Host.reduce IntOp.andi
    (andi (cmpi .sge j (broadcastInDim S1000000x1 ![] bcast_S_S1000000x1 (constantI S_ 32 0#32)))
      (cmpi .sle j (broadcastInDim S1000000x1 ![0, 1] bcast_S1x1_S1000000x1_0_1
        (broadcastInDim S1x1 ![1] bcast_S1_S1x1_1 (constantI S1 32 16383#32)))))
    (constantI S_ 1 1#1) reducesTo_S1000000x1_S1000000_d1 h_S_

def pickRows (z : (⟨S16384x128, .f32⟩ : BufTy).Contents (Elt Ideal)) (j : (⟨S1000000x1, .i32⟩ : BufTy).Contents (Elt Ideal))
    (ok : (⟨S1000000, .i1⟩ : BufTy).Contents (Elt Ideal)) : (⟨S1000000x128, .f32⟩ : BufTy).Contents (Elt Ideal) :=
  select (broadcastInDim S1000000x128 ![0] bcast_S1000000_S1000000x128_0 ok)
    (Host.gather gather_S16384x128_S1000000x1_S1000000x128_1_0_n_n_0_1_1128 z j)
    (broadcastInDim S1000000x128 ![] bcast_S_S1000000x128 (constant (F := Ideal) S_ .f32 0x7FC00000#32))

def takeRows (z : (⟨S16384x128, .f32⟩ : BufTy).Contents (Elt Ideal)) (i : (⟨S1000000, .i32⟩ : BufTy).Contents (Elt Ideal)) :
    (⟨S1000000x128, .f32⟩ : BufTy).Contents (Elt Ideal) :=
  pickRows z (idxCol i) (okRow (idxCol i))

theorem idxCol_apply (i : (⟨S1000000, .i32⟩ : BufTy).Contents (Elt Ideal)) (e : Fin 1000000) (q : Fin 1) :
    idxCol i (ix2 e q) = nrm (i (ix1 e)) := by
  unfold idxCol
  refine (broadcastInDim_apply _ _ _ (ix2 e q) (ix1 e) (fun a => ?_)).trans rfl
  obtain rfl : a = ⟨0, Nat.one_pos⟩ := Fin.ext (Nat.lt_one_iff.mp a.isLt)
  rw [if_neg (by decide)]
  rfl

theorem foldl_andi_one {ι : Type} (f : ι → BitVec 1) (hf : ∀ n, f n = 1#1) :
    ∀ l : List ι, l.foldl (fun r n => IntOp.andi r (f n)) 1#1 = 1#1
  | [] => rfl
  | a :: l => by
    have e : IntOp.andi (1#1 : BitVec 1) 1#1 = 1#1 := by decide
    rw [List.foldl_cons, hf a, e]
    exact foldl_andi_one f hf l

theorem okRow_one (j : (⟨S1000000x1, .i32⟩ : BufTy).Contents (Elt Ideal))
    (hj : ∀ p : S1000000x1.Idx, 0 ≤ (j p).toInt ∧ (j p).toInt ≤ 16383) (r : S1000000.Idx) : okRow j r = 1#1 := by
  unfold okRow
  rw [Host.reduce_eq_foldl]
  refine foldl_andi_one _ (fun p => ?_) _
  have h16 : (16383#32 : BitVec 32).toInt = 16383 := by decide
  exact Cert.Lib.ClampIndex.inrange_true (j p) 16383#32 (hj p).1 (by rw [h16]; exact (hj p).2)

theorem takeRows_apply (z : (⟨S16384x128, .f32⟩ : BufTy).Contents (Elt Ideal)) (i : (⟨S1000000, .i32⟩ : BufTy).Contents (Elt Ideal))
    (hi : ∀ e : Fin 1000000, 0 ≤ (i (ix1 e)).toInt ∧ (i (ix1 e)).toInt < 16384) (e : Fin 1000000) (k : Fin 128) :
    takeRows z i (ix2 e k) = z (ix2 (row (i (ix1 e))) k) := by

  have hcol : ∀ p : S1000000x1.Idx, 0 ≤ (idxCol i p).toInt ∧ (idxCol i p).toInt ≤ 16383 := fun p => by
    obtain ⟨a, b, rfl⟩ : ∃ (a : Fin 1000000) (b : Fin 1), p = ix2 a b := ⟨p 0, p 1, eq_ix2 p⟩
    have hp := hi a
    have hn : nrm (i (ix1 a)) = i (ix1 a) := Cert.Lib.ClampIndex.norm_id _ _ hp.1
    rw [idxCol_apply, hn]
    omega

  have hm : broadcastInDim S1000000x128 ![0] bcast_S1000000_S1000000x128_0 (okRow (idxCol i)) (ix2 e k) = 1#1 := by
    refine (broadcastInDim_apply _ _ _ (ix2 e k) (ix1 e) (fun a => ?_)).trans (okRow_one _ hcol _)
    obtain rfl : a = ⟨0, Nat.one_pos⟩ := Fin.ext (Nat.lt_one_iff.mp a.isLt)
    rw [if_neg (by decide)]
    rfl
  unfold takeRows pickRows
  rw [select_apply, hm, select_one]

  rw [Cert.Lib.RowGather.rowGather_apply gather_S16384x128_S1000000x1_S1000000x128_1_0_n_n_0_1_1128 rfl rfl rfl rfl rfl rfl rfl
    z (idxCol i) e k (by decide)]
  refine congrArg (fun r => z (ix2 r k)) (Fin.ext ?_)
  show min (idxCol i (ix2 e ⟨0, Nat.one_pos⟩)).toInt.toNat (16384 - 1) = min (nrm (i (ix1 e))).toInt.toNat 16383
  rw [idxCol_apply]

theorem take0_split : (hostOps3_1 (F := Ideal)) = hostOps3_1.take 8 ++ ((hostOps3_1.drop 8).take 10 ++ hostOps3_1.drop 18) := rfl

theorem take0_A_idx (V : Valuation τ sig (Elt Ideal)) :
    StableHlo.after ((hostOps3_1 (F := Ideal)).take 8) V (Proc.devRef .tc main_call0_v5) = idxCol (V (Proc.devRef .tc main_v6)) := by
  dsimp only [hostOps3_1, List.take]
  after_results
  simp only [StableHlo.TRef.ofBuf, StableHlo.TRef.toBuf, cast_eq]
  rfl

theorem take0_A_z (V : Valuation τ sig (Elt Ideal)) :
    StableHlo.after ((hostOps3_1 (F := Ideal)).take 8) V (Proc.devRef .tc main_v3) = V (Proc.devRef .tc main_v3) := by
  dsimp only [hostOps3_1, List.take]
  after_results

theorem take0_B_ok (V : Valuation τ sig (Elt Ideal)) :
    StableHlo.after (((hostOps3_1 (F := Ideal)).drop 8).take 10) V (Proc.devRef .tc main_call0_v12) = okRow (V (Proc.devRef .tc main_call0_v5)) := by
  dsimp only [hostOps3_1, List.take, List.drop]
  after_results
  simp only [StableHlo.TRef.ofBuf, StableHlo.TRef.toBuf, cast_eq]
  rfl

theorem take0_B_idx (V : Valuation τ sig (Elt Ideal)) :
    StableHlo.after (((hostOps3_1 (F := Ideal)).drop 8).take 10) V (Proc.devRef .tc main_call0_v5) = V (Proc.devRef .tc main_call0_v5) := by
  dsimp only [hostOps3_1, List.take, List.drop]
  after_results

theorem take0_B_z (V : Valuation τ sig (Elt Ideal)) :
    StableHlo.after (((hostOps3_1 (F := Ideal)).drop 8).take 10) V (Proc.devRef .tc main_v3) = V (Proc.devRef .tc main_v3) := by
  dsimp only [hostOps3_1, List.take, List.drop]
  after_results

theorem take0_C (V : Valuation τ sig (Elt Ideal)) :
    StableHlo.after ((hostOps3_1 (F := Ideal)).drop 18) V (Proc.devRef .tc main_v7)
      = pickRows (V (Proc.devRef .tc main_v3)) (V (Proc.devRef .tc main_call0_v5)) (V (Proc.devRef .tc main_call0_v12)) := by
  dsimp only [hostOps3_1, List.drop]
  after_results
  simp only [StableHlo.TRef.ofBuf, StableHlo.TRef.toBuf, cast_eq]
  rfl

theorem take0_read (W : Valuation τ sig (Elt Ideal)) :
    StableHlo.after (hostOps3_1 (F := Ideal)) W (Proc.devRef .tc main_v7)
      = takeRows (W (Proc.devRef .tc main_v3)) (W (Proc.devRef .tc main_v6)) := by
  rw [take0_split, StableHlo.after_append, StableHlo.after_append, take0_C, take0_B_ok, take0_B_idx, take0_B_z,
    take0_A_idx, take0_A_z]
  rfl

theorem take1_split : (hostOps3_3 (F := Ideal)) = hostOps3_3.take 8 ++ ((hostOps3_3.drop 8).take 10 ++ hostOps3_3.drop 18) := rfl

theorem take1_A_idx (V : Valuation τ sig (Elt Ideal)) :
    StableHlo.after ((hostOps3_3 (F := Ideal)).take 8) V (Proc.devRef .tc main_call1_v5) = idxCol (V (Proc.devRef .tc main_v9)) := by
  dsimp only [hostOps3_3, List.take]
  after_results
  simp only [StableHlo.TRef.ofBuf, StableHlo.TRef.toBuf, cast_eq]
  rfl

theorem take1_A_z (V : Valuation τ sig (Elt Ideal)) :
    StableHlo.after ((hostOps3_3 (F := Ideal)).take 8) V (Proc.devRef .tc main_v3) = V (Proc.devRef .tc main_v3) := by
  dsimp only [hostOps3_3, List.take]
  after_results

theorem take1_B_ok (V : Valuation τ sig (Elt Ideal)) :
    StableHlo.after (((hostOps3_3 (F := Ideal)).drop 8).take 10) V (Proc.devRef .tc main_call1_v12) = okRow (V (Proc.devRef .tc main_call1_v5)) := by
  dsimp only [hostOps3_3, List.take, List.drop]
  after_results
  simp only [StableHlo.TRef.ofBuf, StableHlo.TRef.toBuf, cast_eq]
  rfl

theorem take1_B_idx (V : Valuation τ sig (Elt Ideal)) :
    StableHlo.after (((hostOps3_3 (F := Ideal)).drop 8).take 10) V (Proc.devRef .tc main_call1_v5) = V (Proc.devRef .tc main_call1_v5) := by
  dsimp only [hostOps3_3, List.take, List.drop]
  after_results

theorem take1_B_z (V : Valuation τ sig (Elt Ideal)) :
    StableHlo.after (((hostOps3_3 (F := Ideal)).drop 8).take 10) V (Proc.devRef .tc main_v3) = V (Proc.devRef .tc main_v3) := by
  dsimp only [hostOps3_3, List.take, List.drop]
  after_results

theorem take1_C (V : Valuation τ sig (Elt Ideal)) :
    StableHlo.after ((hostOps3_3 (F := Ideal)).drop 18) V (Proc.devRef .tc main_v10)
      = pickRows (V (Proc.devRef .tc main_v3)) (V (Proc.devRef .tc main_call1_v5)) (V (Proc.devRef .tc main_call1_v12)) := by
  dsimp only [hostOps3_3, List.drop]
  after_results
  simp only [StableHlo.TRef.ofBuf, StableHlo.TRef.toBuf, cast_eq]
  rfl

theorem take1_read (W : Valuation τ sig (Elt Ideal)) :
    StableHlo.after (hostOps3_3 (F := Ideal)) W (Proc.devRef .tc main_v10)
      = takeRows (W (Proc.devRef .tc main_v3)) (W (Proc.devRef .tc main_v9)) := by
  rw [take1_split, StableHlo.after_append, StableHlo.after_append, take1_C, take1_B_ok, take1_B_idx, take1_B_z,
    take1_A_idx, take1_A_z]
  rfl

def ends (E1 E2 : (⟨S500000x2, .i32⟩ : BufTy).Contents (Elt Ideal)) : (⟨S1000000x2, .i32⟩ : BufTy).Contents (Elt Ideal) :=
  concatenate S1000000x2 0 [⟨S500000x2, E1⟩, ⟨S500000x2, E2⟩] concatenates_S500000x2_S500000x2_S1000000x2_d0

theorem ends_apply (E1 E2 : (⟨S500000x2, .i32⟩ : BufTy).Contents (Elt Ideal)) (e : Fin 1000000) (s : Fin 2) :
    ends E1 E2 (ix2 e s) = edge E1 E2 e s := by
  unfold ends edge
  by_cases h : e.val < 500000
  · rw [dif_pos h]
    refine concatenate_pair_apply_left 0 E1 E2 _ (ix2 e s) rfl (ix2 ⟨e.val, h⟩ s) (fun b => ?_)
    match b with
    | ⟨0, _⟩ => rfl
    | ⟨1, _⟩ => rfl
  · rw [dif_neg h]
    refine concatenate_pair_apply_right 0 E1 E2 _ (ix2 e s) rfl rfl (ix2 ⟨e.val - 500000, by omega⟩ s) (fun b hb => ?_) ?_
    · match b with
      | ⟨0, _⟩ => exact absurd rfl hb
      | ⟨1, _⟩ => rfl
    · show e.val - 500000 + 500000 = e.val
      omega

theorem edge_inRange {E1 E2 : IArr 500000 2} (h1 : InRange E1) (h2 : InRange E2) (e : Fin 1000000) (s : Fin 2) :
    0 ≤ (edge E1 E2 e s).toInt ∧ (edge E1 E2 e s).toInt < 16384 := by
  unfold edge
  split
  · exact h1 _ _
  · exact h2 _ _

def endCol0 (L : (⟨S1000000x2, .i32⟩ : BufTy).Contents (Elt Ideal)) : (⟨S1000000, .i32⟩ : BufTy).Contents (Elt Ideal) :=
  shapeCast S1000000 (extractStridedSlice S1000000x1 ![0, 0] L slices_S1000000x2_S1000000x1_0_0) shapeCasts_S1000000x1_S1000000
def endCol1 (L : (⟨S1000000x2, .i32⟩ : BufTy).Contents (Elt Ideal)) : (⟨S1000000, .i32⟩ : BufTy).Contents (Elt Ideal) :=
  shapeCast S1000000 (extractStridedSlice S1000000x1 ![0, 1] L slices_S1000000x2_S1000000x1_0_1) shapeCasts_S1000000x1_S1000000

theorem endCol0_apply (L : (⟨S1000000x2, .i32⟩ : BufTy).Contents (Elt Ideal)) (e : Fin 1000000) : endCol0 L (ix1 e) = L (ix2 e 0) := by
  unfold endCol0
  refine (shapeCast_apply _ _ (ix1 e) (ix2 e (0 : Fin 1)) ?_).trans (slice2_axis1_apply 0 L _ e (0 : Fin 1) (0 : Fin 2) rfl)
  rw [Shape.rowMajor_val_two, Shape.rowMajor_val_one]
  show e.val * 1 + 0 = e.val
  omega

theorem endCol1_apply (L : (⟨S1000000x2, .i32⟩ : BufTy).Contents (Elt Ideal)) (e : Fin 1000000) : endCol1 L (ix1 e) = L (ix2 e 1) := by
  unfold endCol1
  refine (shapeCast_apply _ _ (ix1 e) (ix2 e (0 : Fin 1)) ?_).trans (slice2_axis1_apply 1 L _ e (0 : Fin 1) (1 : Fin 2) rfl)
  rw [Shape.rowMajor_val_two, Shape.rowMajor_val_one]
  show e.val * 1 + 0 = e.val
  omega

theorem V4_v3 : V4 m (outsD m) c main_v3 = zarr m c := by
  show Function.update (V3 m (outsD m) c) main_v3 (outsD m 4 main_v3 c) main_v3 = _
  rw [Function.update_self]
  simp only [outsD, dif_pos]

theorem V4_arg6 : V4 m (outsD m) c main_arg6 = m ((c.tc : Thread nD τ).loc main_arg6) :=
  (V4_of m (outsD m) c main_arg6 (by decide)).trans <| (V3_of m (outsD m) c main_arg6 (by decide)).trans <|
    (V2_of m (outsD m) c main_arg6 (by decide)).trans <| (V1_of m (outsD m) c main_arg6 (by decide)).trans rfl
theorem V4_arg7 : V4 m (outsD m) c main_arg7 = m ((c.tc : Thread nD τ).loc main_arg7) :=
  (V4_of m (outsD m) c main_arg7 (by decide)).trans <| (V3_of m (outsD m) c main_arg7 (by decide)).trans <|
    (V2_of m (outsD m) c main_arg7 (by decide)).trans <| (V1_of m (outsD m) c main_arg7 (by decide)).trans rfl

theorem V5_v4 : V5 m (outsD m) c main_v4
    = ends (m ((c.tc : Thread nD τ).loc main_arg6)) (m ((c.tc : Thread nD τ).loc main_arg7)) := by
  have e : V5 m (outsD m) c main_v4 = ends (V4 m (outsD m) c main_arg6) (V4 m (outsD m) c main_arg7) := by
    show StableHlo.after hostOps3 _ (Proc.devRef .tc main_v4) = _
    after_results
    rfl
  rw [e, V4_arg6, V4_arg7]

theorem V5_v6 : V5 m (outsD m) c main_v6
    = endCol0 (ends (m ((c.tc : Thread nD τ).loc main_arg6)) (m ((c.tc : Thread nD τ).loc main_arg7))) := by
  have e : V5 m (outsD m) c main_v6 = endCol0 (ends (V4 m (outsD m) c main_arg6) (V4 m (outsD m) c main_arg7)) := by
    show StableHlo.after hostOps3 _ (Proc.devRef .tc main_v6) = _
    after_results
    rfl
  rw [e, V4_arg6, V4_arg7]

theorem V7_v9 : V7 m (outsD m) c main_v9
    = endCol1 (ends (m ((c.tc : Thread nD τ).loc main_arg6)) (m ((c.tc : Thread nD τ).loc main_arg7))) := by
  have e : V7 m (outsD m) c main_v9 = endCol1 (V6 m (outsD m) c main_v4) := by
    show StableHlo.after hostOps3_2 _ (Proc.devRef .tc main_v9) = _
    after_results
    rfl
  rw [e, V6_of m (outsD m) c main_v4 (by decide), V5_v4]

theorem V7_v3 : V7 m (outsD m) c main_v3 = zarr m c :=
  (V7_of m (outsD m) c main_v3 (by decide)).trans <| (V6_of m (outsD m) c main_v3 (by decide)).trans <|
    (V5_of m (outsD m) c main_v3 (by decide)).trans (V4_v3 m c)

theorem ent3_v7 (h6 : InRange (m ((c.tc : Thread nD τ).loc main_arg6))) (h7 : InRange (m ((c.tc : Thread nD τ).loc main_arg7))) :
    (ofArr (ent3 m c main_v7) : Mat 1000000 128)
      = fun e k => (ofArr (zarr m c) : Mat 16384 128) (row (edge (m ((c.tc : Thread nD τ).loc main_arg6)) (m ((c.tc : Thread nD τ).loc main_arg7)) e 0)) k := by

  have hall : ent3 m c main_v7
      = takeRows (zarr m c) (endCol0 (ends (m ((c.tc : Thread nD τ).loc main_arg6)) (m ((c.tc : Thread nD τ).loc main_arg7)))) := by
    have e1 : ent3 m c main_v7 = V6 m (outsD m) c main_v7 :=
      (V9_of m (outsD m) c main_v7 (by decide)).trans <| (V8_of m (outsD m) c main_v7 (by decide)).trans
        (V7_of m (outsD m) c main_v7 (by decide))
    have e2 : V6 m (outsD m) c main_v7 = takeRows (V5 m (outsD m) c main_v3) (V5 m (outsD m) c main_v6) :=
      take0_read (V5 m (outsD m) c)
    have e3 : V5 m (outsD m) c main_v3 = zarr m c := (V5_of m (outsD m) c main_v3 (by decide)).trans (V4_v3 m c)
    rw [e1, e2, e3, V5_v6]
  funext e k
  show ent3 m c main_v7 (ix2 e k) = zarr m c (ix2 (row (edge _ _ e 0)) k)
  rw [hall, takeRows_apply _ _ (fun e' => by rw [endCol0_apply, ends_apply]; exact edge_inRange h6 h7 e' 0) e k, endCol0_apply, ends_apply]

theorem ent3_v10 (h6 : InRange (m ((c.tc : Thread nD τ).loc main_arg6))) (h7 : InRange (m ((c.tc : Thread nD τ).loc main_arg7))) :
    (ofArr (ent3 m c main_v10) : Mat 1000000 128)
      = fun e k => (ofArr (zarr m c) : Mat 16384 128) (row (edge (m ((c.tc : Thread nD τ).loc main_arg6)) (m ((c.tc : Thread nD τ).loc main_arg7)) e 1)) k := by

  have hall : ent3 m c main_v10
      = takeRows (zarr m c) (endCol1 (ends (m ((c.tc : Thread nD τ).loc main_arg6)) (m ((c.tc : Thread nD τ).loc main_arg7)))) := by
    have e1 : ent3 m c main_v10 = V8 m (outsD m) c main_v10 := V9_of m (outsD m) c main_v10 (by decide)
    have e2 : V8 m (outsD m) c main_v10 = takeRows (V7 m (outsD m) c main_v3) (V7 m (outsD m) c main_v9) :=
      take1_read (V7 m (outsD m) c)
    rw [e1, e2, V7_v3, V7_v9]
  funext e k
  show ent3 m c main_v10 (ix2 e k) = zarr m c (ix2 (row (edge _ _ e 1)) k)
  rw [hall, takeRows_apply _ _ (fun e' => by rw [endCol1_apply, ends_apply]; exact edge_inRange h6 h7 e' 1) e k, endCol1_apply, ends_apply]

end Cert.KernelIdeal.Hand

end
-- ==== Proof.KI.KValue.lean ====
/- The program's result edge by edge: the four calls' values chained through what each call finds on entry. -/
import proofs.«418033_j40699110097036_3_alg».proof.Proof.KI.Chain
import proofs.«418033_j40699110097036_3_alg».proof.Proof.KI.Val0
import proofs.«418033_j40699110097036_3_alg».proof.Proof.KI.Val1
import proofs.«418033_j40699110097036_3_alg».proof.Proof.KI.Val2
import proofs.«418033_j40699110097036_3_alg».proof.Proof.KI.Val3
import proofs.«418033_j40699110097036_3_alg».proof.Proof.KI.GlueA
import proofs.«418033_j40699110097036_3_alg».proof.Proof.KI.GlueB
import proofs.«418033_j40699110097036_3_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Spec

variable (m : (ℓ : Loc nD τ sig) → Buf (Elt Ideal) ℓ) (c : Dev nD)

theorem t1arr_eq : (ofArr (t1arr m c) : Mat 16384 256)
    = mm (ofArr (m ((c.tc : Thread nD τ).loc main_arg0))) (ofArr (m ((c.tc : Thread nD τ).loc main_arg2))) := by
  funext p q
  show t1arr m c (ix2 p q) = _
  unfold t1arr
  rw [final0 (ent0 m) c p q]

theorem t2arr_eq : (ofArr (t2arr m c) : Mat 16384 128)
    = mm (relu (mm (ofArr (m ((c.tc : Thread nD τ).loc main_arg1)))
        (mm (ofArr (m ((c.tc : Thread nD τ).loc main_arg0))) (ofArr (m ((c.tc : Thread nD τ).loc main_arg2))))))
      (ofArr (m ((c.tc : Thread nD τ).loc main_arg3))) := by
  funext p q
  show t2arr m c (ix2 p q) = _
  unfold t2arr
  rw [final1 (ent1 m) c p q, ent1_arg1 m c, ent1_v0 m c, ent1_v1 m c, t1arr_eq m c]

theorem zarr_eq : (ofArr (zarr m c) : Mat 16384 128)
    = enc (ofArr (m ((c.tc : Thread nD τ).loc main_arg0))) (ofArr (m ((c.tc : Thread nD τ).loc main_arg1))) (ofArr (m ((c.tc : Thread nD τ).loc main_arg2))) (ofArr (m ((c.tc : Thread nD τ).loc main_arg3))) := by
  funext p q
  show zarr m c (ix2 p q) = _
  unfold zarr
  rw [final2 (ent2 m) c p q, ent2_arg1 m c, ent2_v2 m c, t2arr_eq m c]
  rfl

theorem kernel_value (h6 : InRange (m ((c.tc : Thread nD τ).loc main_arg6))) (h7 : InRange (m ((c.tc : Thread nD τ).loc main_arg7))) (e : Fin 1000000) :
    resarr m c (ix2 e 0)
      = resultK (ofArr (m ((c.tc : Thread nD τ).loc main_arg0))) (ofArr (m ((c.tc : Thread nD τ).loc main_arg1))) (ofArr (m ((c.tc : Thread nD τ).loc main_arg2))) (ofArr (m ((c.tc : Thread nD τ).loc main_arg3)))
          (ofArr (m ((c.tc : Thread nD τ).loc main_arg4))) (ofArr (m ((c.tc : Thread nD τ).loc main_arg5))) (m ((c.tc : Thread nD τ).loc main_arg6)) (m ((c.tc : Thread nD τ).loc main_arg7)) e := by
  unfold resarr
  rw [final3 (ent3 m) c e, ent3_v7 m c h6 h7, ent3_v10 m c h6 h7, ent3_v16 m c, ent3_v18 m c, ent3_v19 m c, zarr_eq m c]
  rfl

end Cert.KernelIdeal.Hand

end
-- ==== Proof.RefRun.lean ====
/-
  The reference program's run: a straight line of 76 host operations, read back in six stretches.
-/
import proofs.«418033_j40699110097036_3_alg».proof.Proof.Gen.ReferenceIdeal
import Idealize.ShloMosaic.Lib.StableHlo.Run
import Idealize.ShloMosaic.Lib.Pipeline.Frame

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev opsA : List (HloOp τ sig (Elt F)) :=
  [ binary main_arg0 main_arg2 main_v0 ((fun l r => Host.dotGeneral dot_S16384x512_S512x256_S16384x256_1_0_0_1_n_n none l r) : (⟨S16384x512, .f32⟩ : BufTy).Contents (Elt F) → (⟨S512x256, .f32⟩ : BufTy).Contents (Elt F) → (⟨S16384x256, .f32⟩ : BufTy).Contents (Elt F)),
    binary main_arg1 main_v0 main_v1 ((fun l r => Host.dotGeneral dot_S16384x16384_S16384x256_S16384x256_1_0_0_1_n_n none l r) : (⟨S16384x16384, .f32⟩ : BufTy).Contents (Elt F) → (⟨S16384x256, .f32⟩ : BufTy).Contents (Elt F) → (⟨S16384x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16384x256, .f32⟩) main_call0_v0) (broadcastInDim S16384x256 ![] bcast_S_S16384x256),
    TRef.binary (TRef.of (T := ⟨S16384x256, .f32⟩) main_v1) (TRef.of (T := ⟨S16384x256, .f32⟩) main_call0_v0) (TRef.of (T := ⟨S16384x256, .f32⟩) main_v2) maximumf,
    binary main_v2 main_arg3 main_v3 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    binary main_arg1 main_v3 main_v4 ((fun l r => Host.dotGeneral dot_S16384x16384_S16384x128_S16384x128_1_0_0_1_n_n none l r) : (⟨S16384x16384, .f32⟩ : BufTy).Contents (Elt F) → (⟨S16384x128, .f32⟩ : BufTy).Contents (Elt F) → (⟨S16384x128, .f32⟩ : BufTy).Contents (Elt F)),
    unary main_arg6 main_v5 ((extractStridedSlice S500000x1 ![0, 0] · slices_S500000x2_S500000x1_0_0) : (⟨S500000x2, .i32⟩ : BufTy).Contents (Elt F) → (⟨S500000x1, .i32⟩ : BufTy).Contents (Elt F)),
    reshape main_v5 main_v6 rfl shapeCasts_S500000x1_S500000,
    nullary main_c (constantI S_ 32 0#32),
    unary main_c main_v7 (broadcastInDim S500000 ![] bcast_S_S500000 : (⟨S_, .i32⟩ : BufTy).Contents (Elt F) → (⟨S500000, .i32⟩ : BufTy).Contents (Elt F)),
    binary main_v6 main_v7 main_v8 (cmpi .slt : (⟨S500000, .i32⟩ : BufTy).Contents (Elt F) → (⟨S500000, .i32⟩ : BufTy).Contents (Elt F) → (⟨S500000, .i1⟩ : BufTy).Contents (Elt F)),
    nullary main_c_0 (constantI S_ 32 16384#32),
    unary main_c_0 main_v9 (broadcastInDim S500000 ![] bcast_S_S500000 : (⟨S_, .i32⟩ : BufTy).Contents (Elt F) → (⟨S500000, .i32⟩ : BufTy).Contents (Elt F)),
    binary main_v6 main_v9 main_v10 (addi : (⟨S500000, .i32⟩ : BufTy).Contents (Elt F) → (⟨S500000, .i32⟩ : BufTy).Contents (Elt F) → (⟨S500000, .i32⟩ : BufTy).Contents (Elt F)),
    ternary main_v8 main_v10 main_v6 main_v11 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v11 main_v12 (broadcastInDim S500000x1 ![0] bcast_S500000_S500000x1_0 : (⟨S500000, .i32⟩ : BufTy).Contents (Elt F) → (⟨S500000x1, .i32⟩ : BufTy).Contents (Elt F)),
    binary main_v4 main_v12 main_v13 ((fun x i => Host.gather gather_S16384x128_S500000x1_S500000x128_1_0_n_n_0_1_1128 x i) : (⟨S16384x128, .f32⟩ : BufTy).Contents (Elt F) → (⟨S500000x1, .i32⟩ : BufTy).Contents (Elt F) → (⟨S500000x128, .f32⟩ : BufTy).Contents (Elt F)),
    unary main_arg6 main_v14 ((extractStridedSlice S500000x1 ![0, 1] · slices_S500000x2_S500000x1_0_1) : (⟨S500000x2, .i32⟩ : BufTy).Contents (Elt F) → (⟨S500000x1, .i32⟩ : BufTy).Contents (Elt F)),
    reshape main_v14 main_v15 rfl shapeCasts_S500000x1_S500000,
    nullary main_c_1 (constantI S_ 32 0#32),
    unary main_c_1 main_v16 (broadcastInDim S500000 ![] bcast_S_S500000 : (⟨S_, .i32⟩ : BufTy).Contents (Elt F) → (⟨S500000, .i32⟩ : BufTy).Contents (Elt F)),
    binary main_v15 main_v16 main_v17 (cmpi .slt : (⟨S500000, .i32⟩ : BufTy).Contents (Elt F) → (⟨S500000, .i32⟩ : BufTy).Contents (Elt F) → (⟨S500000, .i1⟩ : BufTy).Contents (Elt F)),
    nullary main_c_2 (constantI S_ 32 16384#32),
    unary main_c_2 main_v18 (broadcastInDim S500000 ![] bcast_S_S500000 : (⟨S_, .i32⟩ : BufTy).Contents (Elt F) → (⟨S500000, .i32⟩ : BufTy).Contents (Elt F)),
    binary main_v15 main_v18 main_v19 (addi : (⟨S500000, .i32⟩ : BufTy).Contents (Elt F) → (⟨S500000, .i32⟩ : BufTy).Contents (Elt F) → (⟨S500000, .i32⟩ : BufTy).Contents (Elt F)),
    ternary main_v17 main_v19 main_v15 main_v20 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v20 main_v21 (broadcastInDim S500000x1 ![0] bcast_S500000_S500000x1_0 : (⟨S500000, .i32⟩ : BufTy).Contents (Elt F) → (⟨S500000x1, .i32⟩ : BufTy).Contents (Elt F)),
    binary main_v4 main_v21 main_v22 ((fun x i => Host.gather gather_S16384x128_S500000x1_S500000x128_1_0_n_n_0_1_1128 x i) : (⟨S16384x128, .f32⟩ : BufTy).Contents (Elt F) → (⟨S500000x1, .i32⟩ : BufTy).Contents (Elt F) → (⟨S500000x128, .f32⟩ : BufTy).Contents (Elt F)) ]

abbrev opsB : List (HloOp τ sig (Elt F)) :=
  [ binary main_v13 main_v22 main_v23 ((fun a b => concatenate S500000x256 1 [⟨S500000x128, a⟩, ⟨S500000x128, b⟩] concatenates_S500000x128_S500000x128_S500000x256_d1) : (⟨S500000x128, .f32⟩ : BufTy).Contents (Elt F) → (⟨S500000x128, .f32⟩ : BufTy).Contents (Elt F) → (⟨S500000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S500000x256, .f32⟩) main_call1_v0) (broadcastInDim S500000x256 ![] bcast_S_S500000x256),
    TRef.binary (TRef.of (T := ⟨S500000x256, .f32⟩) main_v23) (TRef.of (T := ⟨S500000x256, .f32⟩) main_call1_v0) (TRef.of (T := ⟨S500000x256, .f32⟩) main_v24) maximumf,
    binary main_v24 main_arg4 main_v25 ((fun l r => Host.dotGeneral dot_S500000x256_S256x128_S500000x128_1_0_0_1_n_n none l r) : (⟨S500000x256, .f32⟩ : BufTy).Contents (Elt F) → (⟨S256x128, .f32⟩ : BufTy).Contents (Elt F) → (⟨S500000x128, .f32⟩ : BufTy).Contents (Elt F)),
    binary main_v13 main_v22 main_v26 (mulf : (⟨S500000x128, .f32⟩ : BufTy).Contents (Elt F) → (⟨S500000x128, .f32⟩ : BufTy).Contents (Elt F) → (⟨S500000x128, .f32⟩ : BufTy).Contents (Elt F)) ]

abbrev opsC : List (HloOp τ sig (Elt F)) :=
  [ binary main_v25 main_v26 main_v27 ((fun a b => concatenate S500000x256 1 [⟨S500000x128, a⟩, ⟨S500000x128, b⟩] concatenates_S500000x128_S500000x128_S500000x256_d1) : (⟨S500000x128, .f32⟩ : BufTy).Contents (Elt F) → (⟨S500000x128, .f32⟩ : BufTy).Contents (Elt F) → (⟨S500000x256, .f32⟩ : BufTy).Contents (Elt F)),
    binary main_v27 main_arg5 main_v28 ((fun l r => Host.dotGeneral dot_S500000x256_S256x1_S500000x1_1_0_0_1_n_n none l r) : (⟨S500000x256, .f32⟩ : BufTy).Contents (Elt F) → (⟨S256x1, .f32⟩ : BufTy).Contents (Elt F) → (⟨S500000x1, .f32⟩ : BufTy).Contents (Elt F)),
    unary main_arg7 main_v29 ((extractStridedSlice S500000x1 ![0, 0] · slices_S500000x2_S500000x1_0_0) : (⟨S500000x2, .i32⟩ : BufTy).Contents (Elt F) → (⟨S500000x1, .i32⟩ : BufTy).Contents (Elt F)),
    reshape main_v29 main_v30 rfl shapeCasts_S500000x1_S500000,
    nullary main_c_3 (constantI S_ 32 0#32),
    unary main_c_3 main_v31 (broadcastInDim S500000 ![] bcast_S_S500000 : (⟨S_, .i32⟩ : BufTy).Contents (Elt F) → (⟨S500000, .i32⟩ : BufTy).Contents (Elt F)),
    binary main_v30 main_v31 main_v32 (cmpi .slt : (⟨S500000, .i32⟩ : BufTy).Contents (Elt F) → (⟨S500000, .i32⟩ : BufTy).Contents (Elt F) → (⟨S500000, .i1⟩ : BufTy).Contents (Elt F)),
    nullary main_c_4 (constantI S_ 32 16384#32),
    unary main_c_4 main_v33 (broadcastInDim S500000 ![] bcast_S_S500000 : (⟨S_, .i32⟩ : BufTy).Contents (Elt F) → (⟨S500000, .i32⟩ : BufTy).Contents (Elt F)),
    binary main_v30 main_v33 main_v34 (addi : (⟨S500000, .i32⟩ : BufTy).Contents (Elt F) → (⟨S500000, .i32⟩ : BufTy).Contents (Elt F) → (⟨S500000, .i32⟩ : BufTy).Contents (Elt F)),
    ternary main_v32 main_v34 main_v30 main_v35 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v35 main_v36 (broadcastInDim S500000x1 ![0] bcast_S500000_S500000x1_0 : (⟨S500000, .i32⟩ : BufTy).Contents (Elt F) → (⟨S500000x1, .i32⟩ : BufTy).Contents (Elt F)),
    binary main_v4 main_v36 main_v37 ((fun x i => Host.gather gather_S16384x128_S500000x1_S500000x128_1_0_n_n_0_1_1128 x i) : (⟨S16384x128, .f32⟩ : BufTy).Contents (Elt F) → (⟨S500000x1, .i32⟩ : BufTy).Contents (Elt F) → (⟨S500000x128, .f32⟩ : BufTy).Contents (Elt F)),
    unary main_arg7 main_v38 ((extractStridedSlice S500000x1 ![0, 1] · slices_S500000x2_S500000x1_0_1) : (⟨S500000x2, .i32⟩ : BufTy).Contents (Elt F) → (⟨S500000x1, .i32⟩ : BufTy).Contents (Elt F)),
    reshape main_v38 main_v39 rfl shapeCasts_S500000x1_S500000,
    nullary main_c_5 (constantI S_ 32 0#32),
    unary main_c_5 main_v40 (broadcastInDim S500000 ![] bcast_S_S500000 : (⟨S_, .i32⟩ : BufTy).Contents (Elt F) → (⟨S500000, .i32⟩ : BufTy).Contents (Elt F)),
    binary main_v39 main_v40 main_v41 (cmpi .slt : (⟨S500000, .i32⟩ : BufTy).Contents (Elt F) → (⟨S500000, .i32⟩ : BufTy).Contents (Elt F) → (⟨S500000, .i1⟩ : BufTy).Contents (Elt F)),
    nullary main_c_6 (constantI S_ 32 16384#32),
    unary main_c_6 main_v42 (broadcastInDim S500000 ![] bcast_S_S500000 : (⟨S_, .i32⟩ : BufTy).Contents (Elt F) → (⟨S500000, .i32⟩ : BufTy).Contents (Elt F)),
    binary main_v39 main_v42 main_v43 (addi : (⟨S500000, .i32⟩ : BufTy).Contents (Elt F) → (⟨S500000, .i32⟩ : BufTy).Contents (Elt F) → (⟨S500000, .i32⟩ : BufTy).Contents (Elt F)),
    ternary main_v41 main_v43 main_v39 main_v44 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v44 main_v45 (broadcastInDim S500000x1 ![0] bcast_S500000_S500000x1_0 : (⟨S500000, .i32⟩ : BufTy).Contents (Elt F) → (⟨S500000x1, .i32⟩ : BufTy).Contents (Elt F)),
    binary main_v4 main_v45 main_v46 ((fun x i => Host.gather gather_S16384x128_S500000x1_S500000x128_1_0_n_n_0_1_1128 x i) : (⟨S16384x128, .f32⟩ : BufTy).Contents (Elt F) → (⟨S500000x1, .i32⟩ : BufTy).Contents (Elt F) → (⟨S500000x128, .f32⟩ : BufTy).Contents (Elt F)) ]

abbrev opsD : List (HloOp τ sig (Elt F)) :=
  [ binary main_v37 main_v46 main_v47 ((fun a b => concatenate S500000x256 1 [⟨S500000x128, a⟩, ⟨S500000x128, b⟩] concatenates_S500000x128_S500000x128_S500000x256_d1) : (⟨S500000x128, .f32⟩ : BufTy).Contents (Elt F) → (⟨S500000x128, .f32⟩ : BufTy).Contents (Elt F) → (⟨S500000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S500000x256, .f32⟩) main_call2_v0) (broadcastInDim S500000x256 ![] bcast_S_S500000x256),
    TRef.binary (TRef.of (T := ⟨S500000x256, .f32⟩) main_v47) (TRef.of (T := ⟨S500000x256, .f32⟩) main_call2_v0) (TRef.of (T := ⟨S500000x256, .f32⟩) main_v48) maximumf,
    binary main_v48 main_arg4 main_v49 ((fun l r => Host.dotGeneral dot_S500000x256_S256x128_S500000x128_1_0_0_1_n_n none l r) : (⟨S500000x256, .f32⟩ : BufTy).Contents (Elt F) → (⟨S256x128, .f32⟩ : BufTy).Contents (Elt F) → (⟨S500000x128, .f32⟩ : BufTy).Contents (Elt F)),
    binary main_v37 main_v46 main_v50 (mulf : (⟨S500000x128, .f32⟩ : BufTy).Contents (Elt F) → (⟨S500000x128, .f32⟩ : BufTy).Contents (Elt F) → (⟨S500000x128, .f32⟩ : BufTy).Contents (Elt F)) ]

abbrev opsE : List (HloOp τ sig (Elt F)) :=
  [ binary main_v49 main_v50 main_v51 ((fun a b => concatenate S500000x256 1 [⟨S500000x128, a⟩, ⟨S500000x128, b⟩] concatenates_S500000x128_S500000x128_S500000x256_d1) : (⟨S500000x128, .f32⟩ : BufTy).Contents (Elt F) → (⟨S500000x128, .f32⟩ : BufTy).Contents (Elt F) → (⟨S500000x256, .f32⟩ : BufTy).Contents (Elt F)),
    binary main_v51 main_arg5 main_v52 ((fun l r => Host.dotGeneral dot_S500000x256_S256x1_S500000x1_1_0_0_1_n_n none l r) : (⟨S500000x256, .f32⟩ : BufTy).Contents (Elt F) → (⟨S256x1, .f32⟩ : BufTy).Contents (Elt F) → (⟨S500000x1, .f32⟩ : BufTy).Contents (Elt F)) ]

abbrev opsH : List (HloOp τ sig (Elt F)) :=
  [ binary main_v28 main_v52 main_v53 ((fun a b => concatenate S1000000x1 0 [⟨S500000x1, a⟩, ⟨S500000x1, b⟩] concatenates_S500000x1_S500000x1_S1000000x1_d0) : (⟨S500000x1, .f32⟩ : BufTy).Contents (Elt F) → (⟨S500000x1, .f32⟩ : BufTy).Contents (Elt F) → (⟨S1000000x1, .f32⟩ : BufTy).Contents (Elt F)),
    unary main_v53 main_v54 (Host.negf : (⟨S1000000x1, .f32⟩ : BufTy).Contents (Elt F) → (⟨S1000000x1, .f32⟩ : BufTy).Contents (Elt F)),
    unary main_v54 main_v55 (Host.exp : (⟨S1000000x1, .f32⟩ : BufTy).Contents (Elt F) → (⟨S1000000x1, .f32⟩ : BufTy).Contents (Elt F)),
    nullary main_cst (constant S_ .f32 0x3F800000#32),
    unary main_cst main_v56 (broadcastInDim S1000000x1 ![] bcast_S_S1000000x1 : (⟨S_, .f32⟩ : BufTy).Contents (Elt F) → (⟨S1000000x1, .f32⟩ : BufTy).Contents (Elt F)),
    binary main_v56 main_v55 main_v57 (addf : (⟨S1000000x1, .f32⟩ : BufTy).Contents (Elt F) → (⟨S1000000x1, .f32⟩ : BufTy).Contents (Elt F) → (⟨S1000000x1, .f32⟩ : BufTy).Contents (Elt F)),
    nullary main_cst_7 (constant S_ .f32 0x3F800000#32),
    unary main_cst_7 main_v58 (broadcastInDim S1000000x1 ![] bcast_S_S1000000x1 : (⟨S_, .f32⟩ : BufTy).Contents (Elt F) → (⟨S1000000x1, .f32⟩ : BufTy).Contents (Elt F)),
    binary main_v58 main_v57 main_v59 (Host.divf : (⟨S1000000x1, .f32⟩ : BufTy).Contents (Elt F) → (⟨S1000000x1, .f32⟩ : BufTy).Contents (Elt F) → (⟨S1000000x1, .f32⟩ : BufTy).Contents (Elt F)) ]

abbrev ops : List (HloOp τ sig (Elt F)) := opsA ++ (opsB ++ (opsC ++ (opsD ++ (opsE ++ (opsH)))))

theorem main_eq (c : Dev nD) : main (F := F) c = seq ops := by chain_rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, opsA, opsB, opsC, opsD, opsE, opsH, List.cons_append, List.nil_append, List.Forall, TRef.nullary, TRef.unary, TRef.binary,
    binary_bufs_sub, unary_bufs_sub, nullary_bufs_sub, ternary_bufs_sub, reshape_bufs_sub, and_self]
theorem ops_fresh : ∀ op ∈ (ops : List (HloOp τ sig (Elt F))), op.fresh = ∅ :=
  List.forall_iff_forall_mem.mp (by
    simp only [ops, opsA, opsB, opsC, opsD, opsE, opsH, List.cons_append, List.nil_append, List.Forall]
    repeat' constructor)

/-- The encoder's output  adj · (max(adj · (x · W1), 0) · W2). -/
def enc (x0 : (⟨S16384x512, .f32⟩ : BufTy).Contents (Elt F)) (x1 : (⟨S16384x16384, .f32⟩ : BufTy).Contents (Elt F)) (x2 : (⟨S512x256, .f32⟩ : BufTy).Contents (Elt F)) (x3 : (⟨S256x128, .f32⟩ : BufTy).Contents (Elt F)) : (⟨S16384x128, .f32⟩ : BufTy).Contents (Elt F) :=
  Host.dotGeneral dot_S16384x16384_S16384x128_S16384x128_1_0_0_1_n_n none x1 (Host.dotGeneral dot_S16384x256_S256x128_S16384x128_1_0_0_1_n_n none (maximumf (Host.dotGeneral dot_S16384x16384_S16384x256_S16384x256_1_0_0_1_n_n none x1 (Host.dotGeneral dot_S16384x512_S512x256_S16384x256_1_0_0_1_n_n none x0 x2)) (broadcastInDim S16384x256 ![] bcast_S_S16384x256 (constant S_ .f32 0x00000000#32))) x3)

/-- Column 0, column 1 of an edge list. -/
def col0 (a : (⟨S500000x2, .i32⟩ : BufTy).Contents (Elt F)) : (⟨S500000, .i32⟩ : BufTy).Contents (Elt F) :=
  shapeCast _ (extractStridedSlice S500000x1 ![0, 0] a slices_S500000x2_S500000x1_0_0) shapeCasts_S500000x1_S500000
def col1 (a : (⟨S500000x2, .i32⟩ : BufTy).Contents (Elt F)) : (⟨S500000, .i32⟩ : BufTy).Contents (Elt F) :=
  shapeCast _ (extractStridedSlice S500000x1 ![0, 1] a slices_S500000x2_S500000x1_0_1) shapeCasts_S500000x1_S500000

/-- The rows of z taken at a column of endpoints, a negative endpoint counted from the end. -/
def rows (z : (⟨S16384x128, .f32⟩ : BufTy).Contents (Elt F)) (x : (⟨S500000, .i32⟩ : BufTy).Contents (Elt F)) : (⟨S500000x128, .f32⟩ : BufTy).Contents (Elt F) :=
  Host.gather gather_S16384x128_S500000x1_S500000x128_1_0_n_n_0_1_1128 z (broadcastInDim S500000x1 ![0] bcast_S500000_S500000x1_0 (select (cmpi .slt x (broadcastInDim S500000 ![] bcast_S_S500000 (constantI S_ 32 0#32))) (addi x (broadcastInDim S500000 ![] bcast_S_S500000 (constantI S_ 32 16384#32))) x))

/-- The decode's hidden layer and its score, of the rows at the two endpoints; the scores of one edge list. -/
def hid (x4 : (⟨S256x128, .f32⟩ : BufTy).Contents (Elt F)) (ga gb : (⟨S500000x128, .f32⟩ : BufTy).Contents (Elt F)) : (⟨S500000x128, .f32⟩ : BufTy).Contents (Elt F) :=
  Host.dotGeneral dot_S500000x256_S256x128_S500000x128_1_0_0_1_n_n none (maximumf (concatenate S500000x256 1 [⟨S500000x128, ga⟩, ⟨S500000x128, gb⟩] concatenates_S500000x128_S500000x128_S500000x256_d1) (broadcastInDim S500000x256 ![] bcast_S_S500000x256 (constant S_ .f32 0x00000000#32))) x4
def score (x4 : (⟨S256x128, .f32⟩ : BufTy).Contents (Elt F)) (x5 : (⟨S256x1, .f32⟩ : BufTy).Contents (Elt F)) (ga gb : (⟨S500000x128, .f32⟩ : BufTy).Contents (Elt F)) : (⟨S500000x1, .f32⟩ : BufTy).Contents (Elt F) :=
  Host.dotGeneral dot_S500000x256_S256x1_S500000x1_1_0_0_1_n_n none (concatenate S500000x256 1 [⟨S500000x128, (hid x4 ga gb)⟩, ⟨S500000x128, (mulf ga gb)⟩] concatenates_S500000x128_S500000x128_S500000x256_d1) x5
def ends (z : (⟨S16384x128, .f32⟩ : BufTy).Contents (Elt F)) (x4 : (⟨S256x128, .f32⟩ : BufTy).Contents (Elt F)) (x5 : (⟨S256x1, .f32⟩ : BufTy).Contents (Elt F)) (a : (⟨S500000x2, .i32⟩ : BufTy).Contents (Elt F)) : (⟨S500000x1, .f32⟩ : BufTy).Contents (Elt F) :=
  score x4 x5 (rows z (col0 a)) (rows z (col1 a))

/-- The program's result: the logistic of both lists' scores, one list after the other. -/
def result (x0 : (⟨S16384x512, .f32⟩ : BufTy).Contents (Elt F)) (x1 : (⟨S16384x16384, .f32⟩ : BufTy).Contents (Elt F)) (x2 : (⟨S512x256, .f32⟩ : BufTy).Contents (Elt F)) (x3 x4 : (⟨S256x128, .f32⟩ : BufTy).Contents (Elt F)) (x5 : (⟨S256x1, .f32⟩ : BufTy).Contents (Elt F)) (x6 x7 : (⟨S500000x2, .i32⟩ : BufTy).Contents (Elt F)) : (⟨S1000000x1, .f32⟩ : BufTy).Contents (Elt F) :=
  Host.divf (broadcastInDim S1000000x1 ![] bcast_S_S1000000x1 (constant S_ .f32 0x3F800000#32)) (addf (broadcastInDim S1000000x1 ![] bcast_S_S1000000x1 (constant S_ .f32 0x3F800000#32)) (Host.exp (Host.negf (concatenate S1000000x1 0 [⟨S500000x1, ends (enc x0 x1 x2 x3) x4 x5 x6⟩, ⟨S500000x1, ends (enc x0 x1 x2 x3) x4 x5 x7⟩] concatenates_S500000x1_S500000x1_S1000000x1_d0))))

variable (m : (ℓ : Loc nD τ sig) → Buf (Elt F) ℓ) (c : Dev nD)

/-- An array as launched. -/
abbrev A (r : Ref sig .tc) : Buf (Elt F) ((c.tc : Thread nD τ).loc r) := m ((c.tc : Thread nD τ).loc r)

def res_main_v59 : Buf (Elt F) ((c.tc : Thread nD τ).loc main_v59) :=
  result (A m c main_arg0) (A m c main_arg1) (A m c main_arg2) (A m c main_arg3) (A m c main_arg4) (A m c main_arg5) (A m c main_arg6) (A m c main_arg7)
abbrev res_out0 : Buf (Elt F) ((c.tc : Thread nD τ).loc main_v59) := res_main_v59 m c

def val0 : Valuation τ sig (Elt F) := launchContents m c

def val1 : Valuation τ sig (Elt F) := after opsA (val0 m c)
abbrev opsA_W : List (Ref sig .tc) := [main_v0, main_v1, main_call0_cst, main_call0_v0, main_v2, main_v3, main_v4, main_v5, main_v6, main_c, main_v7, main_v8, main_c_0, main_v9, main_v10, main_v11, main_v12, main_v13, main_v14, main_v15, main_c_1, main_v16, main_v17, main_c_2, main_v18, main_v19, main_v20, main_v21, main_v22]
theorem opsA_writes : (opsA : List (HloOp τ sig (Elt F))).Forall fun op => op.writes ⊆ (opsA_W.map (Proc.devRef (τ := τ) .tc)).toFinset := by
  simp only [List.Forall]; repeat' apply And.intro
  all_goals (simp only [nullary_writes, unary_writes, binary_writes, ternary_writes, reshape_writes, Finset.singleton_subset_iff, List.mem_toFinset]; exact List.mem_map_of_mem (by decide))
theorem val1_keep (r : Ref sig .tc) (h : r ∉ opsA_W) : val1 m c (Proc.devRef .tc r) = val0 m c (Proc.devRef .tc r) :=
  after_of_writes_sub opsA _ opsA_writes h
theorem val1_arg (r : Ref sig .tc) (hA : r ∉ opsA_W := by decide) : val1 m c (Proc.devRef .tc r) = m ((c.tc : Thread nD τ).loc r) := val1_keep m c r hA
theorem val1_v4 : val1 m c (no_index (Proc.devRef .tc main_v4)) = enc (A m c main_arg0) (A m c main_arg1) (A m c main_arg2) (A m c main_arg3) := by
  unfold val1; simp only [opsA]; after_results_simp
  rfl
theorem val1_v13 : val1 m c (no_index (Proc.devRef .tc main_v13)) = rows (enc (A m c main_arg0) (A m c main_arg1) (A m c main_arg2) (A m c main_arg3)) (col0 (A m c main_arg6)) := by
  unfold val1; simp only [opsA]; after_results_simp
  rfl
theorem val1_v22 : val1 m c (no_index (Proc.devRef .tc main_v22)) = rows (enc (A m c main_arg0) (A m c main_arg1) (A m c main_arg2) (A m c main_arg3)) (col1 (A m c main_arg6)) := by
  unfold val1; simp only [opsA]; after_results_simp
  rfl

def val2 : Valuation τ sig (Elt F) := after opsB (val1 m c)
abbrev opsB_W : List (Ref sig .tc) := [main_v23, main_call1_cst, main_call1_v0, main_v24, main_v25, main_v26]
theorem opsB_writes : (opsB : List (HloOp τ sig (Elt F))).Forall fun op => op.writes ⊆ (opsB_W.map (Proc.devRef (τ := τ) .tc)).toFinset := by
  simp only [List.Forall]; repeat' apply And.intro
  all_goals (simp only [nullary_writes, unary_writes, binary_writes, ternary_writes, reshape_writes, Finset.singleton_subset_iff, List.mem_toFinset]; exact List.mem_map_of_mem (by decide))
theorem val2_keep (r : Ref sig .tc) (h : r ∉ opsB_W) : val2 m c (Proc.devRef .tc r) = val1 m c (Proc.devRef .tc r) :=
  after_of_writes_sub opsB _ opsB_writes h
theorem val2_arg (r : Ref sig .tc) (hA : r ∉ opsA_W := by decide) (hB : r ∉ opsB_W := by decide) : val2 m c (Proc.devRef .tc r) = m ((c.tc : Thread nD τ).loc r) :=
  (val2_keep m c r hB).trans (val1_arg m c r hA)
theorem val2_v4 : val2 m c (no_index (Proc.devRef .tc main_v4)) = enc (A m c main_arg0) (A m c main_arg1) (A m c main_arg2) (A m c main_arg3) :=
  (val2_keep m c main_v4 (by decide)).trans (val1_v4 m c)
theorem val2_v25 : val2 m c (no_index (Proc.devRef .tc main_v25)) = hid (A m c main_arg4) (rows (enc (A m c main_arg0) (A m c main_arg1) (A m c main_arg2) (A m c main_arg3)) (col0 (A m c main_arg6))) (rows (enc (A m c main_arg0) (A m c main_arg1) (A m c main_arg2) (A m c main_arg3)) (col1 (A m c main_arg6))) := by
  unfold val2; simp only [opsB]; after_results_simp
  rw [val1_v13, val1_v22, val1_arg m c main_arg4]; rfl
theorem val2_v26 : val2 m c (no_index (Proc.devRef .tc main_v26)) = mulf (rows (enc (A m c main_arg0) (A m c main_arg1) (A m c main_arg2) (A m c main_arg3)) (col0 (A m c main_arg6))) (rows (enc (A m c main_arg0) (A m c main_arg1) (A m c main_arg2) (A m c main_arg3)) (col1 (A m c main_arg6))) := by
  unfold val2; simp only [opsB]; after_results_simp
  rw [val1_v13, val1_v22]

def val3 : Valuation τ sig (Elt F) := after opsC (val2 m c)
abbrev opsC_W : List (Ref sig .tc) := [main_v27, main_v28, main_v29, main_v30, main_c_3, main_v31, main_v32, main_c_4, main_v33, main_v34, main_v35, main_v36, main_v37, main_v38, main_v39, main_c_5, main_v40, main_v41, main_c_6, main_v42, main_v43, main_v44, main_v45, main_v46]
theorem opsC_writes : (opsC : List (HloOp τ sig (Elt F))).Forall fun op => op.writes ⊆ (opsC_W.map (Proc.devRef (τ := τ) .tc)).toFinset := by
  simp only [List.Forall]; repeat' apply And.intro
  all_goals (simp only [nullary_writes, unary_writes, binary_writes, ternary_writes, reshape_writes, Finset.singleton_subset_iff, List.mem_toFinset]; exact List.mem_map_of_mem (by decide))
theorem val3_keep (r : Ref sig .tc) (h : r ∉ opsC_W) : val3 m c (Proc.devRef .tc r) = val2 m c (Proc.devRef .tc r) :=
  after_of_writes_sub opsC _ opsC_writes h
theorem val3_arg (r : Ref sig .tc) (hA : r ∉ opsA_W := by decide) (hB : r ∉ opsB_W := by decide) (hC : r ∉ opsC_W := by decide) : val3 m c (Proc.devRef .tc r) = m ((c.tc : Thread nD τ).loc r) :=
  (val3_keep m c r hC).trans (val2_arg m c r hA hB)
theorem val3_v28 : val3 m c (no_index (Proc.devRef .tc main_v28)) = ends (enc (A m c main_arg0) (A m c main_arg1) (A m c main_arg2) (A m c main_arg3)) (A m c main_arg4) (A m c main_arg5) (A m c main_arg6) := by
  unfold val3; simp only [opsC]; after_results_simp
  rw [val2_v25, val2_v26, val2_arg m c main_arg5]; rfl
theorem val3_v37 : val3 m c (no_index (Proc.devRef .tc main_v37)) = rows (enc (A m c main_arg0) (A m c main_arg1) (A m c main_arg2) (A m c main_arg3)) (col0 (A m c main_arg7)) := by
  unfold val3; simp only [opsC]; after_results_simp
  rw [val2_v4, val2_arg m c main_arg7]; rfl
theorem val3_v46 : val3 m c (no_index (Proc.devRef .tc main_v46)) = rows (enc (A m c main_arg0) (A m c main_arg1) (A m c main_arg2) (A m c main_arg3)) (col1 (A m c main_arg7)) := by
  unfold val3; simp only [opsC]; after_results_simp
  rw [val2_v4, val2_arg m c main_arg7]; rfl

def val4 : Valuation τ sig (Elt F) := after opsD (val3 m c)
abbrev opsD_W : List (Ref sig .tc) := [main_v47, main_call2_cst, main_call2_v0, main_v48, main_v49, main_v50]
theorem opsD_writes : (opsD : List (HloOp τ sig (Elt F))).Forall fun op => op.writes ⊆ (opsD_W.map (Proc.devRef (τ := τ) .tc)).toFinset := by
  simp only [List.Forall]; repeat' apply And.intro
  all_goals (simp only [nullary_writes, unary_writes, binary_writes, ternary_writes, reshape_writes, Finset.singleton_subset_iff, List.mem_toFinset]; exact List.mem_map_of_mem (by decide))
theorem val4_keep (r : Ref sig .tc) (h : r ∉ opsD_W) : val4 m c (Proc.devRef .tc r) = val3 m c (Proc.devRef .tc r) :=
  after_of_writes_sub opsD _ opsD_writes h
theorem val4_arg (r : Ref sig .tc) (hA : r ∉ opsA_W := by decide) (hB : r ∉ opsB_W := by decide) (hC : r ∉ opsC_W := by decide) (hD : r ∉ opsD_W := by decide) : val4 m c (Proc.devRef .tc r) = m ((c.tc : Thread nD τ).loc r) :=
  (val4_keep m c r hD).trans (val3_arg m c r hA hB hC)
theorem val4_v28 : val4 m c (no_index (Proc.devRef .tc main_v28)) = ends (enc (A m c main_arg0) (A m c main_arg1) (A m c main_arg2) (A m c main_arg3)) (A m c main_arg4) (A m c main_arg5) (A m c main_arg6) :=
  (val4_keep m c main_v28 (by decide)).trans (val3_v28 m c)
theorem val4_v49 : val4 m c (no_index (Proc.devRef .tc main_v49)) = hid (A m c main_arg4) (rows (enc (A m c main_arg0) (A m c main_arg1) (A m c main_arg2) (A m c main_arg3)) (col0 (A m c main_arg7))) (rows (enc (A m c main_arg0) (A m c main_arg1) (A m c main_arg2) (A m c main_arg3)) (col1 (A m c main_arg7))) := by
  unfold val4; simp only [opsD]; after_results_simp
  rw [val3_v37, val3_v46, val3_arg m c main_arg4]; rfl
theorem val4_v50 : val4 m c (no_index (Proc.devRef .tc main_v50)) = mulf (rows (enc (A m c main_arg0) (A m c main_arg1) (A m c main_arg2) (A m c main_arg3)) (col0 (A m c main_arg7))) (rows (enc (A m c main_arg0) (A m c main_arg1) (A m c main_arg2) (A m c main_arg3)) (col1 (A m c main_arg7))) := by
  unfold val4; simp only [opsD]; after_results_simp
  rw [val3_v37, val3_v46]

def val5 : Valuation τ sig (Elt F) := after opsE (val4 m c)
abbrev opsE_W : List (Ref sig .tc) := [main_v51, main_v52]
theorem opsE_writes : (opsE : List (HloOp τ sig (Elt F))).Forall fun op => op.writes ⊆ (opsE_W.map (Proc.devRef (τ := τ) .tc)).toFinset := by
  simp only [List.Forall]; repeat' apply And.intro
  all_goals (simp only [nullary_writes, unary_writes, binary_writes, ternary_writes, reshape_writes, Finset.singleton_subset_iff, List.mem_toFinset]; exact List.mem_map_of_mem (by decide))
theorem val5_keep (r : Ref sig .tc) (h : r ∉ opsE_W) : val5 m c (Proc.devRef .tc r) = val4 m c (Proc.devRef .tc r) :=
  after_of_writes_sub opsE _ opsE_writes h
theorem val5_arg (r : Ref sig .tc) (hA : r ∉ opsA_W := by decide) (hB : r ∉ opsB_W := by decide) (hC : r ∉ opsC_W := by decide) (hD : r ∉ opsD_W := by decide) (hE : r ∉ opsE_W := by decide) : val5 m c (Proc.devRef .tc r) = m ((c.tc : Thread nD τ).loc r) :=
  (val5_keep m c r hE).trans (val4_arg m c r hA hB hC hD)
theorem val5_v28 : val5 m c (no_index (Proc.devRef .tc main_v28)) = ends (enc (A m c main_arg0) (A m c main_arg1) (A m c main_arg2) (A m c main_arg3)) (A m c main_arg4) (A m c main_arg5) (A m c main_arg6) :=
  (val5_keep m c main_v28 (by decide)).trans (val4_v28 m c)
theorem val5_v52 : val5 m c (no_index (Proc.devRef .tc main_v52)) = ends (enc (A m c main_arg0) (A m c main_arg1) (A m c main_arg2) (A m c main_arg3)) (A m c main_arg4) (A m c main_arg5) (A m c main_arg7) := by
  unfold val5; simp only [opsE]; after_results_simp
  rw [val4_v49, val4_v50, val4_arg m c main_arg5]; rfl

def val6 : Valuation τ sig (Elt F) := after opsH (val5 m c)
abbrev opsH_W : List (Ref sig .tc) := [main_v53, main_v54, main_v55, main_cst, main_v56, main_v57, main_cst_7, main_v58, main_v59]
theorem opsH_writes : (opsH : List (HloOp τ sig (Elt F))).Forall fun op => op.writes ⊆ (opsH_W.map (Proc.devRef (τ := τ) .tc)).toFinset := by
  simp only [List.Forall]; repeat' apply And.intro
  all_goals (simp only [nullary_writes, unary_writes, binary_writes, ternary_writes, reshape_writes, Finset.singleton_subset_iff, List.mem_toFinset]; exact List.mem_map_of_mem (by decide))
theorem val6_keep (r : Ref sig .tc) (h : r ∉ opsH_W) : val6 m c (Proc.devRef .tc r) = val5 m c (Proc.devRef .tc r) :=
  after_of_writes_sub opsH _ opsH_writes h
theorem val6_arg (r : Ref sig .tc) (hA : r ∉ opsA_W := by decide) (hB : r ∉ opsB_W := by decide) (hC : r ∉ opsC_W := by decide) (hD : r ∉ opsD_W := by decide) (hE : r ∉ opsE_W := by decide) (hH : r ∉ opsH_W := by decide) : val6 m c (Proc.devRef .tc r) = m ((c.tc : Thread nD τ).loc r) :=
  (val6_keep m c r hH).trans (val5_arg m c r hA hB hC hD hE)
theorem val6_v59 : val6 m c (no_index (Proc.devRef .tc main_v59)) = res_main_v59 m c := by
  unfold val6; simp only [opsH]; after_results_simp
  rw [val5_v28, val5_v52]; rfl

theorem after_ops : after ops (launchContents m c) = val6 m c := by
  simp only [ops, after_append]; rfl

/-- Every weakly fair execution ends with the result buffer at `res_main_v59` and the arguments as launched. -/
theorem run (ρ : Dev nD → PrngReg) :
    θ_run defs (onTc (τ := τ) (main (F := F))) ⟨m, fun _ => 0, ρ⟩ fun r => ∀ c : Dev nD,
      r.2.mem ((c.tc : Thread nD τ).loc main_v59) = res_main_v59 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v59).trans ((congrFun (after_ops m c) _).trans (val6_v59 m c)),
      (h c main_arg0).trans ((congrFun (after_ops m c) _).trans (val6_arg m c main_arg0)),
      (h c main_arg1).trans ((congrFun (after_ops m c) _).trans (val6_arg m c main_arg1)),
      (h c main_arg2).trans ((congrFun (after_ops m c) _).trans (val6_arg m c main_arg2)),
      (h c main_arg3).trans ((congrFun (after_ops m c) _).trans (val6_arg m c main_arg3)),
      (h c main_arg4).trans ((congrFun (after_ops m c) _).trans (val6_arg m c main_arg4)),
      (h c main_arg5).trans ((congrFun (after_ops m c) _).trans (val6_arg m c main_arg5)),
      (h c main_arg6).trans ((congrFun (after_ops m c) _).trans (val6_arg m c main_arg6)),
      (h c main_arg7).trans ((congrFun (after_ops m c) _).trans (val6_arg m c main_arg7))⟩)
    (run_seq scopedRefs_eq scopedSems_eq defs main (fun _ => ops) main_eq (fun _ => ops_sub) m ρ (fun _ => ops_fresh))

end Cert.ReferenceIdeal.RunH

end
-- ==== Proof.Ref.lean ====
/- The reference's result edge by edge, read off the terms its run ends at: the logistic of the two-layer decode of the rows of z at the edge's two endpoints. -/
import proofs.«418033_j40699110097036_3_alg».proof.Proof.RefRun
import proofs.«418033_j40699110097036_3_alg».proof.Proof.Spec
import proofs.«418033_j40699110097036_3_alg».proof.Proof.LibRowGather
import proofs.«418033_j40699110097036_3_alg».proof.Proof.LibMatmul
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.RunH Cert.Spec
open Cert.Lib.Matmul (dotGeneral_plain)

theorem logistic_read (s : EReal) :
    FloatOps.hostDivf (F := Ideal) (φ := .f32) (FloatOps.ofBits .f32 0x3F800000#32)
      (FloatOps.addf (FloatOps.ofBits .f32 0x3F800000#32) (FloatOps.hostUnary .exp (FloatOps.hostNegf s)))
      = Ideal.logistic s := by
  rw [Ideal.hostDivf_def, Ideal.addf_def, Ideal.hostUnary_exp_def, Ideal.hostNegf_def, Ideal.negf_def, Ideal.ofBits_def,
    Ideal.ofBits_one_f32]
  rfl

theorem max_zero_read (x : EReal) :
    FloatOps.maximumf (F := Ideal) (φ := .f32) x (FloatOps.ofBits .f32 0x00000000#32) = max x 0 := by
  rw [Ideal.maximumf_def, Ideal.ofBits_def, Ideal.ofBits_zero_f32]

theorem concat_cols_read (a b : Arr 500000 128) (n : Fin 500000) (j : Fin 256) :
    concatenate S500000x256 1 [⟨S500000x128, a⟩, ⟨S500000x128, b⟩] concatenates_S500000x128_S500000x128_S500000x256_d1 (ix2 n j)
      = cat (fun k => a (ix2 n k)) (fun k => b (ix2 n k)) j := by
  unfold cat
  by_cases h : j.val < 128
  · rw [dif_pos h]
    refine concatenate_pair_apply_left (1 : Fin S500000x256.rank) a b _ (ix2 n j) rfl (ix2 n ⟨j.val, h⟩) ?_
    intro d; match d with | ⟨0, _⟩ => rfl | ⟨1, _⟩ => rfl
  · rw [dif_neg h]
    refine concatenate_pair_apply_right (1 : Fin S500000x256.rank) a b _ (ix2 n j) rfl rfl (ix2 n ⟨j.val - 128, by omega⟩) ?_ ?_
    · intro d hd; match d, hd with
      | ⟨0, _⟩, _ => rfl
      | ⟨1, _⟩, hd => exact absurd rfl hd
    · show j.val - 128 + 128 = j.val
      omega

theorem concat_rows_read (a b : Arr 500000 1) (e : Fin 1000000) :
    concatenate S1000000x1 0 [⟨S500000x1, a⟩, ⟨S500000x1, b⟩] concatenates_S500000x1_S500000x1_S1000000x1_d0 (ix2 e 0)
      = if h : e.val < 500000 then a (ix2 ⟨e.val, h⟩ 0) else b (ix2 ⟨e.val - 500000, by omega⟩ 0) := by
  by_cases h : e.val < 500000
  · rw [dif_pos h]
    refine concatenate_pair_apply_left (0 : Fin S1000000x1.rank) a b _ (ix2 e 0) rfl (ix2 ⟨e.val, h⟩ 0) ?_
    intro d; match d with | ⟨0, _⟩ => rfl | ⟨1, _⟩ => rfl
  · rw [dif_neg h]
    refine concatenate_pair_apply_right (0 : Fin S1000000x1.rank) a b _ (ix2 e 0) rfl rfl (ix2 ⟨e.val - 500000, by omega⟩ 0) ?_ ?_
    · intro d hd; match d, hd with
      | ⟨0, _⟩, hd => exact absurd rfl hd
      | ⟨1, _⟩, _ => rfl
    · show e.val - 500000 + 500000 = e.val
      omega

theorem gather_rows (z : (⟨S16384x128, .f32⟩ : BufTy).Contents (Elt Ideal)) (v : (⟨S500000x1, .i32⟩ : BufTy).Contents (Elt Ideal))
    (w : BitVec 32) (n : Fin 500000) (k : Fin 128) (hv : v (ix2 n ⟨0, Nat.one_pos⟩) = nrm w) :
    Host.gather gather_S16384x128_S500000x1_S500000x128_1_0_n_n_0_1_1128 z v (ix2 n k) = z (ix2 (row w) k) := by
  rw [Cert.Lib.RowGather.rowGather_apply gather_S16384x128_S500000x1_S500000x128_1_0_n_n_0_1_1128 rfl rfl rfl rfl rfl rfl rfl
    z v n k (by decide)]
  refine congrArg (fun r => z (ix2 r k)) (Fin.ext ?_)
  show min (v (ix2 n ⟨0, Nat.one_pos⟩)).toInt.toNat (16384 - 1) = min (nrm w).toInt.toNat 16383
  rw [hv]

/-- A scalar spread over a shape reads the scalar everywhere. -/
theorem bcast_scalar {t : Shape} {α : Type} (h : S_.BroadcastsInDim t ![]) (x : S_.Idx → α) (j : t.Idx) :
    broadcastInDim t ![] h x j = x ix0 :=
  broadcastInDim_apply _ h x j ix0 (fun a => a.elim0)

theorem relu_read {t : Shape} (h : S_.BroadcastsInDim t ![]) (v : FVec Ideal t .f32) (i : t.Idx) :
    maximumf v (broadcastInDim t ![] h (constant (F := Ideal) S_ .f32 0x00000000#32)) i = max (v i) 0 := by
  show FloatOps.maximumf (v i) (broadcastInDim t ![] h (constant (F := Ideal) S_ .f32 0x00000000#32) i) = _
  rw [bcast_scalar]
  exact max_zero_read _

variable (x0 : (⟨S16384x512, .f32⟩ : BufTy).Contents (Elt Ideal)) (x1 : (⟨S16384x16384, .f32⟩ : BufTy).Contents (Elt Ideal))
  (x2 : (⟨S512x256, .f32⟩ : BufTy).Contents (Elt Ideal)) (x3 x4 : (⟨S256x128, .f32⟩ : BufTy).Contents (Elt Ideal))
  (x5 : (⟨S256x1, .f32⟩ : BufTy).Contents (Elt Ideal)) (x6 x7 : (⟨S500000x2, .i32⟩ : BufTy).Contents (Elt Ideal))

theorem enc_read (p : Fin 16384) (q : Fin 128) :
    RunH.enc (F := Ideal) x0 x1 x2 x3 (ix2 p q) = Spec.enc (ofArr x0) (ofArr x1) (ofArr x2) (ofArr x3) p q := by
  unfold RunH.enc
  refine (dotGeneral_plain 16384 16384 128 _ _ p q).trans ?_
  show _ = ∑ k : Fin 16384, ofArr x1 p k * mm (relu (mm (ofArr x1) (mm (ofArr x0) (ofArr x2)))) (ofArr x3) k q
  refine Finset.sum_congr rfl fun k _ => congrArg (x1 (ix2 p k) * ·) ?_
  refine (dotGeneral_plain 16384 256 128 _ _ k q).trans ?_
  show _ = ∑ j : Fin 256, relu (mm (ofArr x1) (mm (ofArr x0) (ofArr x2))) k j * ofArr x3 j q
  refine Finset.sum_congr rfl fun j _ => congrArg (· * x3 (ix2 j q)) ?_
  refine (relu_read _ _ _).trans (congrArg (max · 0) ?_)
  refine (dotGeneral_plain 16384 16384 256 _ _ k j).trans ?_
  show _ = ∑ l : Fin 16384, ofArr x1 k l * mm (ofArr x0) (ofArr x2) l j
  refine Finset.sum_congr rfl fun l _ => congrArg (x1 (ix2 k l) * ·) ?_
  exact dotGeneral_plain 16384 512 256 x0 x2 l j

theorem col0_read (a : (⟨S500000x2, .i32⟩ : BufTy).Contents (Elt Ideal)) (n : Fin 500000) : col0 (F := Ideal) a (ix1 n) = a (ix2 n 0) := by
  unfold col0
  refine (shapeCast_apply _ shapeCasts_S500000x1_S500000 (ix1 n) (ix2 n 0) ?_).trans ?_
  · rewrite [Shape.rowMajor_val_two, Shape.rowMajor_val_one]; show n.val * 1 + 0 = n.val; omega
  · exact extractStridedSlice_apply ![0, 0] a slices_S500000x2_S500000x1_0_0 (ix2 n 0) (ix2 n 0) (fun b => match b with
      | ⟨0, _⟩ => by show n.val = 0 + n.val; omega
      | ⟨1, _⟩ => rfl)

theorem col1_read (a : (⟨S500000x2, .i32⟩ : BufTy).Contents (Elt Ideal)) (n : Fin 500000) : col1 (F := Ideal) a (ix1 n) = a (ix2 n 1) := by
  unfold col1
  refine (shapeCast_apply _ shapeCasts_S500000x1_S500000 (ix1 n) (ix2 n 0) ?_).trans ?_
  · rewrite [Shape.rowMajor_val_two, Shape.rowMajor_val_one]; show n.val * 1 + 0 = n.val; omega
  · exact extractStridedSlice_apply ![0, 1] a slices_S500000x2_S500000x1_0_1 (ix2 n 0) (ix2 n 1) (fun b => match b with
      | ⟨0, _⟩ => by show n.val = 0 + n.val; omega
      | ⟨1, _⟩ => rfl)

/-- The gather reads, at (n, k), column k of the row of z that endpoint n selects. -/
theorem rows_read (z : (⟨S16384x128, .f32⟩ : BufTy).Contents (Elt Ideal)) (x : (⟨S500000, .i32⟩ : BufTy).Contents (Elt Ideal)) (n : Fin 500000) (k : Fin 128) :
    rows (F := Ideal) z x (ix2 n k) = z (ix2 (row (x (ix1 n))) k) := by
  unfold rows
  refine gather_rows z _ (x (ix1 n)) n k ?_
  refine (broadcastInDim_apply _ bcast_S500000_S500000x1_0 _ _ (ix1 n) (fun b => match b with
    | ⟨0, _⟩ => by show n.val = if (500000 : Nat) = 1 then 0 else n.val; rw [if_neg (by decide)])).trans ?_
  show Scalar.select (IntOp.cmpi .slt (x (ix1 n)) (broadcastInDim S500000 ![] bcast_S_S500000 (constantI S_ 32 0#32) (ix1 n)))
    (IntOp.addi (x (ix1 n)) (broadcastInDim S500000 ![] bcast_S_S500000 (constantI S_ 32 16384#32) (ix1 n))) (x (ix1 n)) = nrm (x (ix1 n))
  rw [bcast_scalar, bcast_scalar]
  rfl

/-- The hidden layer at (n, k): the rows laid side by side, max(., 0), times Wtwo. -/
theorem hid_read (ga gb : (⟨S500000x128, .f32⟩ : BufTy).Contents (Elt Ideal)) (n : Fin 500000) (k : Fin 128) :
    hid (F := Ideal) x4 ga gb (ix2 n k)
      = ∑ q : Fin 256, max (cat (fun k => ga (ix2 n k)) (fun k => gb (ix2 n k)) q) 0 * ofArr x4 q k := by
  unfold hid
  refine (dotGeneral_plain 500000 256 128 _ _ n k).trans (Finset.sum_congr rfl fun q _ => congrArg (· * x4 (ix2 q k)) ?_)
  rw [relu_read, concat_cols_read]

/-- The score of two arrays of rows at an edge is the two-layer decode of the edge's two rows. -/
theorem score_read (ga gb : (⟨S500000x128, .f32⟩ : BufTy).Contents (Elt Ideal)) (n : Fin 500000) :
    Ideal.logistic (score (F := Ideal) x4 x5 ga gb (ix2 n 0))
      = decR (ofArr x4) (ofArr x5) (fun k => ga (ix2 n k)) (fun k => gb (ix2 n k)) := by
  unfold score decR
  refine congrArg Ideal.logistic ((dotGeneral_plain 500000 256 1 _ _ n 0).trans
    (Finset.sum_congr rfl fun j _ => congrArg (· * x5 (ix2 j 0)) ?_))
  rw [concat_cols_read]
  exact congrArg (fun f => cat f _ j) (funext fun k => hid_read x4 ga gb n k)

/-- One edge list's score at an edge is the two-layer decode of the rows of z at the edge's endpoints. -/
theorem ends_read (a : (⟨S500000x2, .i32⟩ : BufTy).Contents (Elt Ideal)) (n : Fin 500000) :
    Ideal.logistic (ends (F := Ideal) (RunH.enc x0 x1 x2 x3) x4 x5 a (ix2 n 0))
      = decR (ofArr x4) (ofArr x5) (Spec.enc (ofArr x0) (ofArr x1) (ofArr x2) (ofArr x3) (row (a (ix2 n 0))))
          (Spec.enc (ofArr x0) (ofArr x1) (ofArr x2) (ofArr x3) (row (a (ix2 n 1)))) := by
  have ha : (fun k => rows (F := Ideal) (RunH.enc x0 x1 x2 x3) (col0 a) (ix2 n k))
      = Spec.enc (ofArr x0) (ofArr x1) (ofArr x2) (ofArr x3) (row (a (ix2 n 0))) := by
    funext k; rw [rows_read, col0_read, enc_read]
  have hb : (fun k => rows (F := Ideal) (RunH.enc x0 x1 x2 x3) (col1 a) (ix2 n k))
      = Spec.enc (ofArr x0) (ofArr x1) (ofArr x2) (ofArr x3) (row (a (ix2 n 1))) := by
    funext k; rw [rows_read, col1_read, enc_read]
  rw [← ha, ← hb]
  exact score_read x4 x5 _ _ n

theorem result_read (e : Fin 1000000) :
    result (F := Ideal) x0 x1 x2 x3 x4 x5 x6 x7 (ix2 e 0)
      = resultR (ofArr x0) (ofArr x1) (ofArr x2) (ofArr x3) (ofArr x4) (ofArr x5) x6 x7 e := by
  unfold result
  show FloatOps.hostDivf (broadcastInDim S1000000x1 ![] bcast_S_S1000000x1 (constant (F := Ideal) S_ .f32 0x3F800000#32) (ix2 e 0))
    (FloatOps.addf (broadcastInDim S1000000x1 ![] bcast_S_S1000000x1 (constant (F := Ideal) S_ .f32 0x3F800000#32) (ix2 e 0))
      (FloatOps.hostUnary .exp (FloatOps.hostNegf (concatenate S1000000x1 0 [⟨S500000x1, ends (RunH.enc x0 x1 x2 x3) x4 x5 x6⟩, ⟨S500000x1, ends (RunH.enc x0 x1 x2 x3) x4 x5 x7⟩] concatenates_S500000x1_S500000x1_S1000000x1_d0 (ix2 e 0))))) = _
  rw [bcast_scalar]
  refine (logistic_read _).trans ?_
  rw [concat_rows_read]
  unfold resultR edge
  by_cases h : e.val < 500000
  · simp only [dif_pos h]
    exact ends_read x0 x1 x2 x3 x4 x5 x6 ⟨e.val, h⟩
  · simp only [dif_neg h]
    exact ends_read x0 x1 x2 x3 x4 x5 x7 ⟨e.val - 500000, by omega⟩

variable (m : (ℓ : Loc nD τ sig) → Buf (Elt Ideal) ℓ) (c : Dev nD)

theorem ref_value (e : Fin 1000000) :
    res_out0 (F := Ideal) m c (ix2 e 0)
      = resultR (ofArr (m ((c.tc : Thread nD τ).loc main_arg0))) (ofArr (m ((c.tc : Thread nD τ).loc main_arg1))) (ofArr (m ((c.tc : Thread nD τ).loc main_arg2))) (ofArr (m ((c.tc : Thread nD τ).loc main_arg3)))
          (ofArr (m ((c.tc : Thread nD τ).loc main_arg4))) (ofArr (m ((c.tc : Thread nD τ).loc main_arg5))) (m ((c.tc : Thread nD τ).loc main_arg6)) (m ((c.tc : Thread nD τ).loc main_arg7)) e :=
  result_read _ _ _ _ _ _ _ _ e

end Cert.ReferenceIdeal.RefValue

end
-- ==== Proof.Alg.lean ====
/- The folded decode equals the two-layer decode on real rows and real weights: a product distributes over a finite sum of reals, and two finite sums exchange. -/
import proofs.«418033_j40699110097036_3_alg».proof.Proof.Spec
import Mathlib.Data.EReal.Basic
import Mathlib.Algebra.BigOperators.Fin
import Mathlib.Tactic.Ring

noncomputable section

namespace Cert.Spec

open Idealize.ShloMosaic Idealize.ShloMosaic.ValueIdx

theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem max_coe_zero (a : ℝ) : max (a : EReal) 0 = ((max a 0 : ℝ) : EReal) := by
  rcases le_total a 0 with h | h
  · rw [max_eq_right h, max_eq_right (by rw [← EReal.coe_zero]; exact EReal.coe_le_coe_iff.mpr h),
      EReal.coe_zero]
  · rw [max_eq_left h, max_eq_left (by rw [← EReal.coe_zero]; exact EReal.coe_le_coe_iff.mpr h)]

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sum {ι : Type*} (s : Finset ι) (f : ι → EReal) (h : ∀ i, IsReal (f i)) :
    IsReal (∑ i ∈ s, f i) := by
  choose g hg using h
  exact ⟨∑ i ∈ s, g i, by rw [← coe_sum]; exact Finset.sum_congr rfl fun i _ => hg i⟩

theorem IsReal.max0 {x : EReal} (hx : IsReal x) : IsReal (max x 0) := by
  obtain ⟨a, rfl⟩ := hx
  exact ⟨max a 0, max_coe_zero a⟩

theorem mm_real {a b d : ℕ} (A : Mat a b) (B : Mat b d) (hA : ∀ p q, IsReal (A p q))
    (hB : ∀ p q, IsReal (B p q)) : ∀ p q, IsReal (mm A B p q) := fun p q =>
  IsReal.sum _ _ fun k => (hA p k).mul (hB k q)

theorem relu_real {a b : ℕ} (A : Mat a b) (hA : ∀ p q, IsReal (A p q)) :
    ∀ p q, IsReal (relu A p q) := fun p q => (hA p q).max0

theorem sum_split {M : Type*} [AddCommMonoid M] (F : Fin 256 → M) :
    ∑ j : Fin 256, F j = ∑ k : Fin 128, F (lo k) + ∑ k : Fin 128, F (hi k) :=
  Fin.sum_univ_add (a := 128) (b := 128) F

theorem cat_lo {α : Type} (f g : Fin 128 → α) (k : Fin 128) : cat f g (lo k) = f k := by
  unfold cat
  rw [dif_pos (show (lo k).val < 128 from k.isLt)]
  rfl

theorem cat_hi {α : Type} (f g : Fin 128 → α) (k : Fin 128) : cat f g (hi k) = g k := by
  have hn : ¬ (hi k).val < 128 := by simp [hi]
  unfold cat
  rw [dif_neg hn]
  congr 1
  apply Fin.ext
  simp [hi]

theorem decR_arg (Wtwo : Mat 256 128) (Wthree : Mat 256 1) (za zb : Fin 128 → EReal) :
    (∑ j : Fin 256,
      cat (fun j' : Fin 128 => ∑ k : Fin 256, max (cat za zb k) 0 * Wtwo k j') (fun k => za k * zb k) j
        * Wthree j 0)
    = ∑ j : Fin 128, (∑ k : Fin 128, max (za k) 0 * Wtwo (lo k) j
          + ∑ k : Fin 128, max (zb k) 0 * Wtwo (hi k) j) * Wthree (lo j) 0
      + ∑ k : Fin 128, (za k * zb k) * Wthree (hi k) 0 := by
  rw [sum_split]
  simp only [cat_lo, cat_hi]
  congr 1
  refine Finset.sum_congr rfl fun j _ => ?_
  rw [sum_split]
  simp only [cat_lo, cat_hi]

theorem fold_real {m n : ℕ} (A B : Fin m → ℝ) (P Q : Fin m → Fin n → ℝ) (c : Fin n → ℝ) :
    ∑ k, A k * ∑ j, P k j * c j + ∑ k, B k * ∑ j, Q k j * c j
      = ∑ j, (∑ k, A k * P k j + ∑ k, B k * Q k j) * c j := by
  simp only [Finset.mul_sum, Finset.sum_mul, add_mul, Finset.sum_add_distrib]
  rw [Finset.sum_comm (f := fun k j => A k * (P k j * c j)),
    Finset.sum_comm (f := fun k j => B k * (Q k j * c j))]
  congr 1 <;>
    exact Finset.sum_congr rfl fun j _ => Finset.sum_congr rfl fun k _ => (mul_assoc _ _ _).symm

theorem fold_ereal {m n : ℕ} (A B : Fin m → ℝ) (P Q : Fin m → Fin n → ℝ) (c : Fin n → ℝ) :
    ∑ k, (A k : EReal) * ∑ j, (P k j : EReal) * (c j : EReal)
        + ∑ k, (B k : EReal) * ∑ j, (Q k j : EReal) * (c j : EReal)
      = ∑ j, (∑ k, (A k : EReal) * (P k j : EReal) + ∑ k, (B k : EReal) * (Q k j : EReal)) * (c j : EReal) := by
  simp only [← EReal.coe_mul, coe_sum, ← EReal.coe_add]
  exact congrArg _ (fold_real A B P Q c)

theorem decK_eq_decR (Wtwo : Mat 256 128) (Wthree : Mat 256 1) (za zb : Fin 128 → EReal)
    (h2 : ∀ k j, IsReal (Wtwo k j)) (h3 : ∀ j, IsReal (Wthree j 0)) (ha : ∀ k, IsReal (za k)) (hb : ∀ k, IsReal (zb k)) :
    decK Wtwo Wthree za zb = decR Wtwo Wthree za zb := by
  choose wtwo hw2 using h2
  choose wthree hw3 using h3
  choose a ha using ha
  choose b hb using hb
  unfold decK decR uRow vRow wRow
  rw [decR_arg]
  simp only [hw2, hw3, ha, hb, max_coe_zero]
  rw [fold_ereal (fun k => max (a k) 0) (fun k => max (b k) 0) (fun k j => wtwo (lo k) j)
    (fun k j => wtwo (hi k) j) (fun j => wthree (lo j))]

theorem enc_real (x : Mat 16384 512) (adj : Mat 16384 16384) (W1 : Mat 512 256) (W2 : Mat 256 128)
    (hx : ∀ p q, IsReal (x p q)) (hadj : ∀ p q, IsReal (adj p q)) (h1 : ∀ p q, IsReal (W1 p q)) (h2 : ∀ p q, IsReal (W2 p q)) :
    ∀ p q, IsReal (enc x adj W1 W2 p q) := by
  unfold enc
  exact mm_real _ _ hadj (mm_real _ _ (relu_real _ (mm_real _ _ hadj (mm_real _ _ hx h1))) h2)

theorem resultK_eq_resultR (x : Mat 16384 512) (adj : Mat 16384 16384) (W1 : Mat 512 256) (W2 : Mat 256 128)
    (Wtwo : Mat 256 128) (Wthree : Mat 256 1) (E1 E2 : IArr 500000 2) (e : Fin 1000000)
    (hx : ∀ p q, IsReal (x p q)) (hadj : ∀ p q, IsReal (adj p q)) (h1 : ∀ p q, IsReal (W1 p q)) (h2 : ∀ p q, IsReal (W2 p q))
    (h4 : ∀ p q, IsReal (Wtwo p q)) (h5 : ∀ p q, IsReal (Wthree p q)) :
    resultK x adj W1 W2 Wtwo Wthree E1 E2 e = resultR x adj W1 W2 Wtwo Wthree E1 E2 e :=
  decK_eq_decR Wtwo Wthree _ _ h4 (fun j => h5 j 0) (fun k => enc_real x adj W1 W2 hx hadj h1 h2 _ k)
    (fun k => enc_real x adj W1 W2 hx hadj h1 h2 _ k)

end Cert.Spec

end
-- ==== Proof.PreDecode.lean ====
/- The precondition, entry by entry: every float entry is a real number and every endpoint lies in [0, 16384). -/
import proofs.«418033_j40699110097036_3_alg».proof.Pre_finite_inputs
import proofs.«418033_j40699110097036_3_alg».proof.Proof.Spec
import Idealize.ShloMosaic.Lib.ReduceAll
import Idealize.ShloMosaic.Lib.StableHlo.Predicate

set_option maxRecDepth 16384

noncomputable section

namespace Cert.PreDecode

open Idealize.ShloMosaic Idealize.ShloMosaic.ValueIdx Cert.Spec Cert.Pre_finite_inputs

instance : Subsingleton S_.Idx := ⟨fun a b => funext fun d => d.elim0⟩

theorem andi_at {s : Shape} (x y : IVec s 1) (i : s.Idx) : andi x y i = 1#1 ↔ x i = 1#1 ∧ y i = 1#1 :=
  IntOp.andi_eq_one

theorem inf_bits : Ideal.ofBits .f32 0x7F800000#32 = (⊤ : EReal) := by
  simp [Ideal.ofBits, Ideal.ieee]

theorem real_of_abs_lt_top (x : EReal) (h : max x (-x) < ⊤) : IsReal x := by
  induction x using EReal.rec with
  | bot => simp at h
  | coe r => exact ⟨r, rfl⟩
  | top => simp at h

theorem real_of_all {S : Shape} {axes : List (Fin S.rank)}
    (hb : S_.BroadcastsInDim S (![] : Fin 0 → Fin S.rank)) (hr : S.ReducesTo axes S_) (h0 : 0 < S_.numel)
    (a : FVec Ideal S .f32) (init : IVec S_ 1) (j : S_.Idx)
    (h : Host.reduce IntOp.andi
        (cmpf .olt (Host.absf a) (broadcastInDim S ![] hb (constant (F := Ideal) S_ .f32 0x7F800000#32))) init hr h0 j = 1#1) :
    ∀ i, IsReal (a i) := by
  intro i
  have hi := Host.reduce_andi_all _ _ hr h0 j h i
  have hlt : max (a i) (-(a i)) < (⊤ : EReal) := by
    have e : cmpf .olt (Host.absf a) (broadcastInDim S ![] hb (constant (F := Ideal) S_ .f32 0x7F800000#32)) i
        = BitVec.ofBool (decide (max (a i) (-(a i)) < Ideal.ofBits .f32 0x7F800000#32)) := rfl
    rw [e, inf_bits, StableHlo.Predicate.ofBool_eq_one_iff, decide_eq_true_eq] at hi
    exact hi
  exact real_of_abs_lt_top _ hlt

theorem range_of_all {axes : List (Fin S500000x2.rank)}
    (hb : S_.BroadcastsInDim S500000x2 (![] : Fin 0 → Fin S500000x2.rank)) (hr : S500000x2.ReducesTo axes S_)
    (h0 : 0 < S_.numel) (E : IVec S500000x2 32) (init : IVec S_ 1) (j : S_.Idx)
    (h : Host.reduce IntOp.andi
        (andi (cmpi .sge E (broadcastInDim S500000x2 ![] hb (constantI S_ 32 0#32)))
              (cmpi .slt E (broadcastInDim S500000x2 ![] hb (constantI S_ 32 16384#32)))) init hr h0 j = 1#1) :
    InRange E := by
  intro e s
  have hi := Host.reduce_andi_all _ _ hr h0 j h (ix2 e s)
  rw [andi_at] at hi
  obtain ⟨hge, hlt⟩ := hi
  have e1 : cmpi .sge E (broadcastInDim S500000x2 ![] hb (constantI S_ 32 0#32)) (ix2 e s)
      = IntOp.cmpi .sge (E (ix2 e s)) 0#32 := rfl
  have e2 : cmpi .slt E (broadcastInDim S500000x2 ![] hb (constantI S_ 32 16384#32)) (ix2 e s)
      = IntOp.cmpi .slt (E (ix2 e s)) 16384#32 := rfl
  rw [e1, IntOp.cmpi_sge, show (0#32 : BitVec 32).toInt = 0 from by decide] at hge
  rw [e2, IntOp.cmpi_slt, show (16384#32 : BitVec 32).toInt = 16384 from by decide] at hlt
  exact ⟨hge, hlt⟩

theorem decode [Cert.Pre_finite_inputs.Facts] (a0 : FVec Ideal S16384x512 .f32) (a1 : FVec Ideal S16384x16384 .f32) (a2 : FVec Ideal S512x256 .f32)
    (a3 : FVec Ideal S256x128 .f32) (a4 : FVec Ideal S256x128 .f32) (a5 : FVec Ideal S256x1 .f32)
    (a6 : IVec S500000x2 32) (a7 : IVec S500000x2 32)
    (h : Cert.Pre_finite_inputs.fn (F := Ideal) a0 a1 a2 a3 a4 a5 a6 a7 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ InRange a6 ∧ InRange a7 := by
  have hs := congrFun h ix0
  dsimp only [Cert.Pre_finite_inputs.fn, fn_part1, fn_part2] at hs
  simp only [andi_at] at hs
  obtain ⟨⟨⟨⟨⟨⟨⟨h0, h1⟩, h2⟩, h3⟩, h4⟩, h5⟩, h6⟩, h7⟩ := hs
  exact ⟨real_of_all _ _ _ a0 _ _ h0, real_of_all _ _ _ a1 _ _ h1, real_of_all _ _ _ a2 _ _ h2,
    real_of_all _ _ _ a3 _ _ h3, real_of_all _ _ _ a4 _ _ h4, real_of_all _ _ _ a5 _ _ h5,
    range_of_all _ _ _ a6 _ _ h6, range_of_all _ _ _ a7 _ _ h7⟩

end Cert.PreDecode

end
-- ==== Proof.lean ====
/-
  Link scores of a graph auto-encoder: the encoder is  z = adj · (max(adj · (x · W1), 0) · W2),  and an
  edge (a, b) is scored from the rows z[a], z[b] by a two-layer decode followed by the logistic function.
  One program folds the decode's two weight matrices into three rows beforehand, the other multiplies
  everything out; over the extended reals they agree when the float inputs are real numbers (the fold
  distributes products over sums) and every endpoint is a row number of z.
-/
import proofs.«418033_j40699110097036_3_alg».proof.Defs
import proofs.«418033_j40699110097036_3_alg».proof.Proof.Gen.Kernel
import proofs.«418033_j40699110097036_3_alg».proof.Proof.Gen.KernelIdeal
import proofs.«418033_j40699110097036_3_alg».proof.Proof.Gen.ReferenceIdeal
import proofs.«418033_j40699110097036_3_alg».proof.Proof.Gen.Pre_finite_inputs
import proofs.«418033_j40699110097036_3_alg».proof.Proof.Word
import proofs.«418033_j40699110097036_3_alg».proof.Proof.KI.KValue
import proofs.«418033_j40699110097036_3_alg».proof.Proof.RefRun
import proofs.«418033_j40699110097036_3_alg».proof.Proof.Ref
import proofs.«418033_j40699110097036_3_alg».proof.Proof.Alg
import proofs.«418033_j40699110097036_3_alg».proof.Proof.PreDecode
import Idealize.ShloMosaic.Adequacy
import Idealize.ShloMosaic.Init

set_option maxRecDepth 16384

noncomputable section

namespace Cert.Proof

open Idealize.ShloMosaic Idealize.SL.Sem Idealize.ShloMosaic.ValueIdx Cert.Spec

theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun _ h c => (h c).2) (Cert.KernelIdeal.Hand.run_main (F := Ideal) m ρ)

theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.ReferenceIdeal.RunH.run (F := Ideal) m ρ)

/-- Both programs score every edge by a decode of the same two rows of the same encoder; the folded
    decode and the two-layer decode agree on real rows and weights. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.resarr m c, Cert.KernelIdeal.Hand.run_main (F := Ideal) m ρ, ?_⟩
  refine (θ_run (Cert.ReferenceIdeal.defs (F := Ideal)) _ _).mono (fun _ h c => ⟨(h c).1.trans ?_, (h c).2⟩)
    (Cert.ReferenceIdeal.RunH.run (F := Ideal) m' ρ')
  obtain ⟨h0, h1, h2, h3, h4, h5, h6, h7⟩ :=
    @Cert.PreDecode.decode Cert.Pre_finite_inputs.Gen.facts _ _ _ _ _ _ _ _ (hpre c)
  obtain ⟨e0, e1, e2, e3, e4, e5, e6, e7⟩ := hagree c
  funext i
  obtain ⟨e, z, rfl⟩ : ∃ (e : Fin 1000000) (z : Fin 1), i = ix2 e z := ⟨i 0, i 1, eq_ix2 i⟩
  obtain rfl : z = 0 := Subsingleton.elim _ _
  refine (Cert.ReferenceIdeal.RefValue.ref_value m' c e).trans ?_
  rw [e0, e1, e2, e3, e4, e5, e6, e7]
  refine Eq.trans ?_ (Cert.KernelIdeal.Hand.kernel_value m c h6 h7 e).symm
  exact (Cert.Spec.resultK_eq_resultR _ _ _ _ _ _ _ _ e (fun p q => h0 _) (fun p q => h1 _) (fun p q => h2 _)
    (fun p q => h3 _) (fun p q => h4 _) (fun p q => h5 _)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
